-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x2 : Shape := ⟨2, ![50000, 2]⟩
abbrev S2x360000 : Shape := ⟨2, ![2, 360000]⟩
abbrev S118x200 : Shape := ⟨2, ![118, 200]⟩
abbrev S16x10 : Shape := ⟨2, ![16, 10]⟩
abbrev S64x10 : Shape := ⟨2, ![64, 10]⟩
abbrev S222x222 : Shape := ⟨2, ![222, 222]⟩
abbrev S222 : Shape := ⟨1, ![222]⟩
abbrev S222x512 : Shape := ⟨2, ![222, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S118x200 : S_.BroadcastsInDim S118x200 (![] : Fin 0 → Fin S118x200.rank)
  reducesTo_S118x200_S_d0_1 : S118x200.ReducesTo [0, 1] S_
  bcast_S_S16x10 : S_.BroadcastsInDim S16x10 (![] : Fin 0 → Fin S16x10.rank)
  reducesTo_S16x10_S_d0_1 : S16x10.ReducesTo [0, 1] S_
  bcast_S_S64x10 : S_.BroadcastsInDim S64x10 (![] : Fin 0 → Fin S64x10.rank)
  reducesTo_S64x10_S_d0_1 : S64x10.ReducesTo [0, 1] S_
  bcast_S_S222x222 : S_.BroadcastsInDim S222x222 (![] : Fin 0 → Fin S222x222.rank)
  reducesTo_S222x222_S_d0_1 : S222x222.ReducesTo [0, 1] S_
  bcast_S_S222 : S_.BroadcastsInDim S222 (![] : Fin 0 → Fin S222.rank)
  reducesTo_S222_S_d0 : S222.ReducesTo [0] S_
  bcast_S_S222x512 : S_.BroadcastsInDim S222x512 (![] : Fin 0 → Fin S222x512.rank)
  reducesTo_S222x512_S_d0_1 : S222x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S128x1 .f32 := Host.absf main_arg19
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg20
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg16 : FVec F S512 .f32) (main_arg17 : FVec F S512x128 .f32) (main_arg18 : FVec F S128 .f32) (main_arg19 : FVec F S128x1 .f32) (main_arg20 : FVec F S1 .f32) (main_v48 : IVec S_ 1) (main_v49 : FVec F S222x512 .f32) (main_v50 : FVec F S222x512 .f32) : IVec S_ 1 :=
  let main_v51 : IVec S222x512 1 := cmpf .olt main_v49 main_v50
  let main_c_19 : IVec S_ 1 := constantI S_ 1 1#1
  let main_v52 : IVec S_ 1 := (fun x v => Host.reduce IntOp.andi x v reducesTo_S222x512_S_d0_1 h_S_) main_v51 main_c_19
  let main_v53 : IVec S_ 1 := andi main_v48 main_v52
  let main_v54 : FVec F S512 .f32 := Host.absf main_arg16
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg17
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg18
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg19 main_arg20 main_v63 main_v67

def fn_part2 {F : FTy → Type} [FloatOps F] (main_arg12 : FVec F S222 .f32) (main_arg13 : FVec F S222x222 .f32) (main_arg14 : FVec F S222 .f32) (main_arg15 : FVec F S222x512 .f32) (main_arg16 : FVec F S512 .f32) (main_arg17 : FVec F S512x128 .f32) (main_arg18 : FVec F S128 .f32) (main_arg19 : FVec F S128x1 .f32) (main_arg20 : FVec F S1 .f32) (main_v33 : IVec S_ 1) : IVec S_ 1 :=
  let main_v34 : FVec F S222 .f32 := Host.absf main_arg12
  let main_cst_12 : FVec F S_ .f32 := constant S_ .f32 0x7F800000#32
  let main_v35 : FVec F S222 .f32 := broadcastInDim S222 ![] bcast_S_S222 main_cst_12
  let main_v36 : IVec S222 1 := cmpf .olt main_v34 main_v35
  let main_c_13 : IVec S_ 1 := constantI S_ 1 1#1
  let main_v37 : IVec S_ 1 := (fun x v => Host.reduce IntOp.andi x v reducesTo_S222_S_d0 h_S_) main_v36 main_c_13
  let main_v38 : IVec S_ 1 := andi main_v33 main_v37
  let main_v39 : FVec F S222x222 .f32 := Host.absf main_arg13
  let main_cst_14 : FVec F S_ .f32 := constant S_ .f32 0x7F800000#32
  let main_v40 : FVec F S222x222 .f32 := broadcastInDim S222x222 ![] bcast_S_S222x222 main_cst_14
  let main_v41 : IVec S222x222 1 := cmpf .olt main_v39 main_v40
  let main_c_15 : IVec S_ 1 := constantI S_ 1 1#1
  let main_v42 : IVec S_ 1 := (fun x v => Host.reduce IntOp.andi x v reducesTo_S222x222_S_d0_1 h_S_) main_v41 main_c_15
  let main_v43 : IVec S_ 1 := andi main_v38 main_v42
  let main_v44 : FVec F S222 .f32 := Host.absf main_arg14
  let main_cst_16 : FVec F S_ .f32 := constant S_ .f32 0x7F800000#32
  let main_v45 : FVec F S222 .f32 := broadcastInDim S222 ![] bcast_S_S222 main_cst_16
  let main_v46 : IVec S222 1 := cmpf .olt main_v44 main_v45
  let main_c_17 : IVec S_ 1 := constantI S_ 1 1#1
  let main_v47 : IVec S_ 1 := (fun x v => Host.reduce IntOp.andi x v reducesTo_S222_S_d0 h_S_) main_v46 main_c_17
  let main_v48 : IVec S_ 1 := andi main_v43 main_v47
  let main_v49 : FVec F S222x512 .f32 := Host.absf main_arg15
  let main_cst_18 : FVec F S_ .f32 := constant S_ .f32 0x7F800000#32
  let main_v50 : FVec F S222x512 .f32 := broadcastInDim S222x512 ![] bcast_S_S222x512 main_cst_18
  fn_part3 (F := F) main_arg16 main_arg17 main_arg18 main_arg19 main_arg20 main_v48 main_v49 main_v50

def fn_part1 {F : FTy → Type} [FloatOps F] (main_arg9 : FVec F S222x222 .f32) (main_arg10 : FVec F S222 .f32) (main_arg11 : FVec F S222x222 .f32) (main_arg12 : FVec F S222 .f32) (main_arg13 : FVec F S222x222 .f32) (main_arg14 : FVec F S222 .f32) (main_arg15 : FVec F S222x512 .f32) (main_arg16 : FVec F S512 .f32) (main_arg17 : FVec F S512x128 .f32) (main_arg18 : FVec F S128 .f32) (main_arg19 : FVec F S128x1 .f32) (main_arg20 : FVec F S1 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S222x222 .f32 := Host.absf main_arg9
  let main_cst_6 : FVec F S_ .f32 := constant S_ .f32 0x7F800000#32
  let main_v20 : FVec F S222x222 .f32 := broadcastInDim S222x222 ![] bcast_S_S222x222 main_cst_6
  let main_v21 : IVec S222x222 1 := cmpf .olt main_v19 main_v20
  let main_c_7 : IVec S_ 1 := constantI S_ 1 1#1
  let main_v22 : IVec S_ 1 := (fun x v => Host.reduce IntOp.andi x v reducesTo_S222x222_S_d0_1 h_S_) main_v21 main_c_7
  let main_v23 : IVec S_ 1 := andi main_v18 main_v22
  let main_v24 : FVec F S222 .f32 := Host.absf main_arg10
  let main_cst_8 : FVec F S_ .f32 := constant S_ .f32 0x7F800000#32
  let main_v25 : FVec F S222 .f32 := broadcastInDim S222 ![] bcast_S_S222 main_cst_8
  let main_v26 : IVec S222 1 := cmpf .olt main_v24 main_v25
  let main_c_9 : IVec S_ 1 := constantI S_ 1 1#1
  let main_v27 : IVec S_ 1 := (fun x v => Host.reduce IntOp.andi x v reducesTo_S222_S_d0 h_S_) main_v26 main_c_9
  let main_v28 : IVec S_ 1 := andi main_v23 main_v27
  let main_v29 : FVec F S222x222 .f32 := Host.absf main_arg11
  let main_cst_10 : FVec F S_ .f32 := constant S_ .f32 0x7F800000#32
  let main_v30 : FVec F S222x222 .f32 := broadcastInDim S222x222 ![] bcast_S_S222x222 main_cst_10
  let main_v31 : IVec S222x222 1 := cmpf .olt main_v29 main_v30
  let main_c_11 : IVec S_ 1 := constantI S_ 1 1#1
  let main_v32 : IVec S_ 1 := (fun x v => Host.reduce IntOp.andi x v reducesTo_S222x222_S_d0_1 h_S_) main_v31 main_c_11
  let main_v33 : IVec S_ 1 := andi main_v28 main_v32
  fn_part2 (F := F) main_arg12 main_arg13 main_arg14 main_arg15 main_arg16 main_arg17 main_arg18 main_arg19 main_arg20 main_v33

def fn {F : FTy → Type} [FloatOps F] (main_arg0 : IVec S50000 32) (main_arg1 : IVec S50000 32) (main_arg2 : IVec S50000 32) (main_arg3 : FVec F S50000x2 .f32) (main_arg4 : IVec S2x360000 32) (main_arg5 : IVec S50000 32) (main_arg6 : FVec F S118x200 .f32) (main_arg7 : FVec F S16x10 .f32) (main_arg8 : FVec F S64x10 .f32) (main_arg9 : FVec F S222x222 .f32) (main_arg10 : FVec F S222 .f32) (main_arg11 : FVec F S222x222 .f32) (main_arg12 : FVec F S222 .f32) (main_arg13 : FVec F S222x222 .f32) (main_arg14 : FVec F S222 .f32) (main_arg15 : FVec F S222x512 .f32) (main_arg16 : FVec F S512 .f32) (main_arg17 : FVec F S512x128 .f32) (main_arg18 : FVec F S128 .f32) (main_arg19 : FVec F S128x1 .f32) (main_arg20 : FVec F S1 .f32) : IVec S_ 1 :=
  let main_v0 : FVec F S50000x2 .f32 := Host.absf main_arg3
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S118x200 .f32 := Host.absf main_arg6
  let main_cst_0 : FVec F S_ .f32 := constant S_ .f32 0x7F800000#32
  let main_v5 : FVec F S118x200 .f32 := broadcastInDim S118x200 ![] bcast_S_S118x200 main_cst_0
  let main_v6 : IVec S118x200 1 := cmpf .olt main_v4 main_v5
  let main_c_1 : IVec S_ 1 := constantI S_ 1 1#1
  let main_v7 : IVec S_ 1 := (fun x v => Host.reduce IntOp.andi x v reducesTo_S118x200_S_d0_1 h_S_) main_v6 main_c_1
  let main_v8 : IVec S_ 1 := andi main_v3 main_v7
  let main_v9 : FVec F S16x10 .f32 := Host.absf main_arg7
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_v14 : FVec F S64x10 .f32 := Host.absf main_arg8
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg9 main_arg10 main_arg11 main_arg12 main_arg13 main_arg14 main_arg15 main_arg16 main_arg17 main_arg18 main_arg19 main_arg20 main_v13 main_v16
-- ==== Kernel.lean ====
abbrev S50000 : Shape := ⟨1, ![50000]⟩
abbrev S50000x2 : Shape := ⟨2, ![50000, 2]⟩
abbrev S2x360000 : Shape := ⟨2, ![2, 360000]⟩
abbrev S118x200 : Shape := ⟨2, ![118, 200]⟩
abbrev S16x10 : Shape := ⟨2, ![16, 10]⟩
abbrev S64x10 : Shape := ⟨2, ![64, 10]⟩
abbrev S222x222 : Shape := ⟨2, ![222, 222]⟩
abbrev S222 : Shape := ⟨1, ![222]⟩
abbrev S222x512 : Shape := ⟨2, ![222, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x200 : Shape := ⟨2, ![50000, 200]⟩
abbrev S50000x10 : Shape := ⟨2, ![50000, 10]⟩
abbrev S50000x222 : Shape := ⟨2, ![50000, 222]⟩
abbrev S1x360000 : Shape := ⟨2, ![1, 360000]⟩
abbrev S360000 : Shape := ⟨1, ![360000]⟩
abbrev S410000 : Shape := ⟨1, ![410000]⟩
abbrev S410000x1 : Shape := ⟨2, ![410000, 1]⟩
abbrev S2000x222 : Shape := ⟨2, ![2000, 222]⟩
abbrev S410000x222 : Shape := ⟨2, ![410000, 222]⟩
abbrev S1x222 : Shape := ⟨2, ![1, 222]⟩
abbrev S2000 : Shape := ⟨1, ![2000]⟩
abbrev S2000x1 : Shape := ⟨2, ![2000, 1]⟩
abbrev S1x512 : Shape := ⟨2, ![1, 512]⟩
abbrev S1x128 : Shape := ⟨2, ![1, 128]⟩
abbrev S1x1 : Shape := ⟨2, ![1, 1]⟩
abbrev S2000x512 : Shape := ⟨2, ![2000, 512]⟩
abbrev S2000x128 : Shape := ⟨2, ![2000, 128]⟩

abbrev nBuf : Space → Nat
  | .hbm => 169
  | .vmem => 38
  | .smem => 0
  | _ => 0

abbrev hbmTy0_0 (i : Nat) : BufTy := match i % 128 with
  | 0 => ⟨S50000, .i32⟩
  | 1 => ⟨S50000, .i32⟩
  | 2 => ⟨S50000, .i32⟩
  | 3 => ⟨S50000x2, .f32⟩
  | 4 => ⟨S2x360000, .i32⟩
  | 5 => ⟨S50000, .i32⟩
  | 6 => ⟨S118x200, .f32⟩
  | 7 => ⟨S16x10, .f32⟩
  | 8 => ⟨S64x10, .f32⟩
  | 9 => ⟨S222x222, .f32⟩
  | 10 => ⟨S222, .f32⟩
  | 11 => ⟨S222x222, .f32⟩
  | 12 => ⟨S222, .f32⟩
  | 13 => ⟨S222x222, .f32⟩
  | 14 => ⟨S222, .f32⟩
  | 15 => ⟨S222x512, .f32⟩
  | 16 => ⟨S512, .f32⟩
  | 17 => ⟨S512x128, .f32⟩
  | 18 => ⟨S128, .f32⟩
  | 19 => ⟨S128x1, .f32⟩
  | 20 => ⟨S1, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x200, .f32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x10, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x10, .f32⟩
  | 48 => ⟨S50000x222, .f32⟩
  | 49 => ⟨S50000, .i32⟩
  | 50 => ⟨S1x360000, .i32⟩
  | 51 => ⟨S360000, .i32⟩
  | 52 => ⟨S410000, .i32⟩
  | 53 => ⟨S1x360000, .i32⟩
  | 54 => ⟨S360000, .i32⟩
  | 55 => ⟨S410000, .i32⟩
  | 56 => ⟨S_, .f32⟩
  | 57 => ⟨S50000, .f32⟩
  | 58 => ⟨S_, .i32⟩
  | 59 => ⟨S410000, .i32⟩
  | 60 => ⟨S410000, .i1⟩
  | 61 => ⟨S_, .i32⟩
  | 62 => ⟨S410000, .i32⟩
  | 63 => ⟨S410000, .i32⟩
  | 64 => ⟨S410000, .i32⟩
  | 65 => ⟨S410000x1, .i32⟩
  | 66 => ⟨S_, .f32⟩
  | 67 => ⟨S410000, .f32⟩
  | 68 => ⟨S50000, .f32⟩
  | 69 => ⟨S_, .f32⟩
  | 70 => ⟨S50000, .f32⟩
  | 71 => ⟨S50000, .f32⟩
  | 72 => ⟨S50000, .f32⟩
  | 73 => ⟨S_, .i32⟩
  | 74 => ⟨S410000, .i32⟩
  | 75 => ⟨S410000, .i1⟩
  | 76 => ⟨S_, .i32⟩
  | 77 => ⟨S410000, .i32⟩
  | 78 => ⟨S410000, .i32⟩
  | 79 => ⟨S410000, .i32⟩
  | 80 => ⟨S410000x1, .i32⟩
  | 81 => ⟨S410000, .f32⟩
  | 82 => ⟨S_, .i32⟩
  | 83 => ⟨S410000, .i32⟩
  | 84 => ⟨S410000, .i1⟩
  | 85 => ⟨S_, .i32⟩
  | 86 => ⟨S410000, .i32⟩
  | 87 => ⟨S410000, .i32⟩
  | 88 => ⟨S410000, .i32⟩
  | 89 => ⟨S410000x1, .i32⟩
  | 90 => ⟨S410000, .f32⟩
  | 91 => ⟨S410000, .f32⟩
  | 92 => ⟨S50000x222, .f32⟩
  | 93 => ⟨S_, .i32⟩
  | 94 => ⟨S410000, .i32⟩
  | 95 => ⟨S410000, .i1⟩
  | 96 => ⟨S_, .i32⟩
  | 97 => ⟨S410000, .i32⟩
  | 98 => ⟨S410000, .i32⟩
  | 99 => ⟨S410000, .i32⟩
  | 100 => ⟨S410000x1, .i32⟩
  | 101 => ⟨S410000x222, .f32⟩
  | 102 => ⟨S410000x1, .f32⟩
  | 103 => ⟨S410000x222, .f32⟩
  | 104 => ⟨S410000x222, .f32⟩
  | 105 => ⟨S_, .f32⟩
  | 106 => ⟨S50000x222, .f32⟩
  | 107 => ⟨S410000x1, .i32⟩
  | 108 => ⟨S50000x222, .f32⟩
  | 109 => ⟨S1x222, .f32⟩
  | 110 => ⟨S50000x222, .f32⟩
  | 111 => ⟨S50000x222, .f32⟩
  | 112 => ⟨S_, .i32⟩
  | 113 => ⟨S410000, .i32⟩
  | 114 => ⟨S410000, .i1⟩
  | 115 => ⟨S_, .i32⟩
  | 116 => ⟨S410000, .i32⟩
  | 117 => ⟨S410000, .i32⟩
  | 118 => ⟨S410000, .i32⟩
  | 119 => ⟨S410000x1, .i32⟩
  | 120 => ⟨S410000x222, .f32⟩
  | 121 => ⟨S410000x1, .f32⟩
  | 122 => ⟨S410000x222, .f32⟩
  | 123 => ⟨S410000x222, .f32⟩
  | 124 => ⟨S_, .f32⟩
  | 125 => ⟨S50000x222, .f32⟩
  | 126 => ⟨S410000x1, .i32⟩
  | 127 => ⟨S50000x222, .f32⟩
  | _ => ⟨S50000, .i32⟩

abbrev hbmTy0_1 (i : Nat) : BufTy := match i % 128 with
  | 0 => ⟨S1x222, .f32⟩
  | 1 => ⟨S50000x222, .f32⟩
  | 2 => ⟨S50000x222, .f32⟩
  | 3 => ⟨S_, .i32⟩
  | 4 => ⟨S410000, .i32⟩
  | 5 => ⟨S410000, .i1⟩
  | 6 => ⟨S_, .i32⟩
  | 7 => ⟨S410000, .i32⟩
  | 8 => ⟨S410000, .i32⟩
  | 9 => ⟨S410000, .i32⟩
  | 10 => ⟨S410000x1, .i32⟩
  | 11 => ⟨S410000x222, .f32⟩
  | 12 => ⟨S410000x1, .f32⟩
  | 13 => ⟨S410000x222, .f32⟩
  | 14 => ⟨S410000x222, .f32⟩
  | 15 => ⟨S_, .f32⟩
  | 16 => ⟨S50000x222, .f32⟩
  | 17 => ⟨S410000x1, .i32⟩
  | 18 => ⟨S50000x222, .f32⟩
  | 19 => ⟨S1x222, .f32⟩
  | 20 => ⟨S50000x222, .f32⟩
  | 21 => ⟨S_, .f32⟩
  | 22 => ⟨S2000x222, .f32⟩
  | 23 => ⟨S50000x1, .i32⟩
  | 24 => ⟨S2000x222, .f32⟩
  | 25 => ⟨S_, .f32⟩
  | 26 => ⟨S50000, .f32⟩
  | 27 => ⟨S_, .f32⟩
  | 28 => ⟨S2000, .f32⟩
  | 29 => ⟨S50000x1, .i32⟩
  | 30 => ⟨S2000, .f32⟩
  | 31 => ⟨S_, .f32⟩
  | 32 => ⟨S2000, .f32⟩
  | 33 => ⟨S2000, .f32⟩
  | 34 => ⟨S2000x1, .f32⟩
  | 35 => ⟨S2000x222, .f32⟩
  | 36 => ⟨S2000x222, .f32⟩
  | 37 => ⟨S1x512, .f32⟩
  | 38 => ⟨S1x128, .f32⟩
  | 39 => ⟨S1x1, .f32⟩
  | 40 => ⟨S2000x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S2000x222, .f32⟩
  | .local _ .vmem, ⟨1, _⟩ => ⟨S2000x222, .f32⟩
  | .local _ .vmem, ⟨2, _⟩ => ⟨S222x222, .f32⟩
  | .local _ .vmem, ⟨3, _⟩ => ⟨S2000x222, .f32⟩
  | .local _ .vmem, ⟨4, _⟩ => ⟨S2000x222, .f32⟩
  | .local _ .vmem, ⟨5, _⟩ => ⟨S2000x222, .f32⟩
  | .local _ .vmem, ⟨6, _⟩ => ⟨S2000x222, .f32⟩
  | .local _ .vmem, ⟨7, _⟩ => ⟨S1x222, .f32⟩
  | .local _ .vmem, ⟨8, _⟩ => ⟨S2000x222, .f32⟩
  | .local _ .vmem, ⟨9, _⟩ => ⟨S2000x222, .f32⟩
  | .local _ .vmem, ⟨10, _⟩ => ⟨S2000x222, .f32⟩
  | .local _ .vmem, ⟨11, _⟩ => ⟨S2000x222, .f32⟩
  | .local _ .vmem, ⟨12, _⟩ => ⟨S222x222, .f32⟩
  | .local _ .vmem, ⟨13, _⟩ => ⟨S2000x222, .f32⟩
  | .local _ .vmem, ⟨14, _⟩ => ⟨S2000x222, .f32⟩
  | .local _ .vmem, ⟨15, _⟩ => ⟨S2000x222, .f32⟩
  | .local _ .vmem, ⟨16, _⟩ => ⟨S2000x222, .f32⟩
  | .local _ .vmem, ⟨17, _⟩ => ⟨S1x222, .f32⟩
  | .local _ .vmem, ⟨18, _⟩ => ⟨S2000x222, .f32⟩
  | .local _ .vmem, ⟨19, _⟩ => ⟨S2000x222, .f32⟩
  | .local _ .vmem, ⟨20, _⟩ => ⟨S2000x222, .f32⟩
  | .local _ .vmem, ⟨21, _⟩ => ⟨S2000x222, .f32⟩
  | .local _ .vmem, ⟨22, _⟩ => ⟨S222x222, .f32⟩
  | .local _ .vmem, ⟨23, _⟩ => ⟨S2000x222, .f32⟩
  | .local _ .vmem, ⟨24, _⟩ => ⟨S2000x222, .f32⟩
  | .local _ .vmem, ⟨25, _⟩ => ⟨S2000x222, .f32⟩
  | .local _ .vmem, ⟨26, _⟩ => ⟨S2000x222, .f32⟩
  | .local _ .vmem, ⟨27, _⟩ => ⟨S1x222, .f32⟩
  | .local _ .vmem, ⟨28, _⟩ => ⟨S2000x222, .f32⟩
  | .local _ .vmem, ⟨29, _⟩ => ⟨S2000x222, .f32⟩
  | .local _ .vmem, ⟨30, _⟩ => ⟨S2000x222, .f32⟩
  | .local _ .vmem, ⟨31, _⟩ => ⟨S222x512, .f32⟩
  | .local _ .vmem, ⟨32, _⟩ => ⟨S1x512, .f32⟩
  | .local _ .vmem, ⟨33, _⟩ => ⟨S512x128, .f32⟩
  | .local _ .vmem, ⟨34, _⟩ => ⟨S1x128, .f32⟩
  | .local _ .vmem, ⟨35, _⟩ => ⟨S128x1, .f32⟩
  | .local _ .vmem, ⟨36, _⟩ => ⟨S1x1, .f32⟩
  | .local _ .vmem, ⟨37, _⟩ => ⟨S2000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_9 : Ref sig .tc := ⟨.hbm, 73, rfl⟩
abbrev main_v41 : Ref sig .tc := ⟨.hbm, 74, rfl⟩
abbrev main_v42 : Ref sig .tc := ⟨.hbm, 75, rfl⟩
abbrev main_c_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_11 : Ref sig .tc := ⟨.hbm, 82, rfl⟩
abbrev main_v48 : Ref sig .tc := ⟨.hbm, 83, rfl⟩
abbrev main_v49 : Ref sig .tc := ⟨.hbm, 84, rfl⟩
abbrev main_c_12 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_13 : Ref sig .tc := ⟨.hbm, 93, rfl⟩
abbrev main_v57 : Ref sig .tc := ⟨.hbm, 94, rfl⟩
abbrev main_v58 : Ref sig .tc := ⟨.hbm, 95, rfl⟩
abbrev main_c_14 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_16 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_19 : Ref sig .tc := ⟨.hbm, 131, rfl⟩
abbrev main_v89 : Ref sig .tc := ⟨.hbm, 132, rfl⟩
abbrev main_v90 : Ref sig .tc := ⟨.hbm, 133, rfl⟩
abbrev main_c_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_23 : Ref sig .tc := ⟨.hbm, 153, rfl⟩
abbrev main_v107 : Ref sig .tc := ⟨.hbm, 154, rfl⟩
abbrev main_cst_24 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_25 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg6_0 : Ref sig .tc := ⟨.vmem, 36, rfl⟩
abbrev cc6_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35
abbrev cc6_sem6_0 : DmaSem sig := 36
abbrev cc6_sem7_0 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x222 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S222x222 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x222 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x222 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x222 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x222 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x222 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S222x222 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x222 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x222 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x222 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x222 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x222 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S222x222 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x222 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x222 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x222 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x222 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2000x222 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S222x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S2000x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x200_S50000x10_S50000x10_S50000x2_S50000x222_d1 : Shape.Concatenates [S50000x200, S50000x10, S50000x10, S50000x2] S50000x222 1
  slices_S2x360000_S1x360000_0_0 : S2x360000.Slices ![0, 0] S1x360000
  shapeCasts_S1x360000_S360000 : S1x360000.ShapeCasts S360000
  concatenates_S360000_S50000_S410000_d0 : Shape.Concatenates [S360000, S50000] S410000 0
  slices_S2x360000_S1x360000_1_0 : S2x360000.Slices ![1, 0] S1x360000
  bcast_S_S410000 : S_.BroadcastsInDim S410000 (![] : Fin 0 → Fin S410000.rank)
  bcast_S410000_S410000x1_0 : S410000.BroadcastsInDim S410000x1 (![0] : Fin 1 → Fin S410000x1.rank)
  inb_S2000x222_S2000x222_0_0 : ∀ a, (![0, 0] : Fin 2 → Nat) a + S2000x222.size a ≤ S2000x222.size a
  h_S2000x222 : 0 < S2000x222.numel
  shapeCasts_S2000x222_S2000x222 : S2000x222.ShapeCasts S2000x222
  bitsLt_bf16_f32 : FTy.bits .bf16 < FTy.bits .f32
  inb_S222x222_S222x222_0_0 : ∀ a, (![0, 0] : Fin 2 → Nat) a + S222x222.size a ≤ S222x222.size a
  h_S222x222 : 0 < S222x222.numel
  bcast_S410000x1_S410000x222_0_1 : S410000x1.BroadcastsInDim S410000x222 (![0, 1] : Fin 2 → Fin S410000x222.rank)
  bcast_S_S50000x222 : S_.BroadcastsInDim S50000x222 (![] : Fin 0 → Fin S50000x222.rank)
  shapeCasts_S222_S1x222 : S222.ShapeCasts S1x222
  inb_S1x222_S1x222_0_0 : ∀ a, (![0, 0] : Fin 2 → Nat) a + S1x222.size a ≤ S1x222.size a
  h_S1x222 : 0 < S1x222.numel
  shapeCasts_S1x222_S1x222 : S1x222.ShapeCasts S1x222
  broadcasts_S1x222_S2000x222 : S1x222.Broadcasts S2000x222
  bcast_S_S2000x222 : S_.BroadcastsInDim S2000x222 (![] : Fin 0 → Fin S2000x222.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x222_0_1 : S2000x1.BroadcastsInDim S2000x222 (![0, 1] : Fin 2 → Fin S2000x222.rank)
  shapeCasts_S512_S1x512 : S512.ShapeCasts S1x512
  shapeCasts_S128_S1x128 : S128.ShapeCasts S1x128
  shapeCasts_S1_S1x1 : S1.ShapeCasts S1x1
  inb_S222x512_S222x512_0_0 : ∀ a, (![0, 0] : Fin 2 → Nat) a + S222x512.size a ≤ S222x512.size a
  h_S222x512 : 0 < S222x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S118x200_S50000x1_S50000x200_1_0_n_n_0_1_1200_wf : GatherDims.WF S118x200 S50000x1 S50000x200 [1] [0] [] [0] [] 1 ![1, 200]
  gather_S16x10_S50000x1_S50000x10_1_0_n_n_0_1_110_wf : GatherDims.WF S16x10 S50000x1 S50000x10 [1] [0] [] [0] [] 1 ![1, 10]
  gather_S64x10_S50000x1_S50000x10_1_0_n_n_0_1_110_wf : GatherDims.WF S64x10 S50000x1 S50000x10 [1] [0] [] [0] [] 1 ![1, 10]
  scatter_S50000_S410000x1_S410000_n_0_0_1_wf : ScatterDims.WF S50000 S410000x1 S410000 [] [0] [0] 1
  gather_S50000_S410000x1_S410000_n_0_n_n_0_1_1_wf : GatherDims.WF S50000 S410000x1 S410000 [] [0] [] [0] [] 1 ![1]
  dot_S2000x222_S222x222_S2000x222_1_0_0_1_n_n_wf : DotDims.WF S2000x222 S222x222 S2000x222 [1] [0] [0] [1] [] []
  gather_S50000x222_S410000x1_S410000x222_1_0_n_n_0_1_1222_wf : GatherDims.WF S50000x222 S410000x1 S410000x222 [1] [0] [] [0] [] 1 ![1, 222]
  scatter_S50000x222_S410000x1_S410000x222_1_0_0_1_wf : ScatterDims.WF S50000x222 S410000x1 S410000x222 [1] [0] [0] 1
  scatter_S2000x222_S50000x1_S50000x222_1_0_0_1_wf : ScatterDims.WF S2000x222 S50000x1 S50000x222 [1] [0] [0] 1
  scatter_S2000_S50000x1_S50000_n_0_0_1_wf : ScatterDims.WF S2000 S50000x1 S50000 [] [0] [0] 1
  dot_S2000x222_S222x512_S2000x512_1_0_0_1_n_n_wf : DotDims.WF S2000x222 S222x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x222.size a ≤ S50000x222.size a
  hwx0_0 : ∀ i : grid0.Coords, EltTy.bits .f32 = 32 ∨ (Rect.block (s := S50000x222) S2000x222.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S222x222.size a ≤ S222x222.size a
  hwx0_1 : ∀ i : grid0.Coords, EltTy.bits .f32 = 32 ∨ (Rect.block (s := S222x222) S222x222.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x222.size a ≤ S50000x222.size a
  hwx0_2 : ∀ i : grid0.Coords, EltTy.bits .f32 = 32 ∨ (Rect.block (s := S50000x222) S2000x222.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x222.size a ≤ S50000x222.size a
  hwx1_0 : ∀ i : grid1.Coords, EltTy.bits .f32 = 32 ∨ (Rect.block (s := S50000x222) S2000x222.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x222.size a ≤ S1x222.size a
  hwx1_1 : ∀ i : grid1.Coords, EltTy.bits .f32 = 32 ∨ (Rect.block (s := S1x222) S1x222.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x222.size a ≤ S50000x222.size a
  hwx1_2 : ∀ i : grid1.Coords, EltTy.bits .f32 = 32 ∨ (Rect.block (s := S50000x222) S2000x222.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x222.size a ≤ S50000x222.size a
  hwx2_0 : ∀ i : grid2.Coords, EltTy.bits .f32 = 32 ∨ (Rect.block (s := S50000x222) S2000x222.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S222x222.size a ≤ S222x222.size a
  hwx2_1 : ∀ i : grid2.Coords, EltTy.bits .f32 = 32 ∨ (Rect.block (s := S222x222) S222x222.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x222.size a ≤ S50000x222.size a
  hwx2_2 : ∀ i : grid2.Coords, EltTy.bits .f32 = 32 ∨ (Rect.block (s := S50000x222) S2000x222.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x222.size a ≤ S50000x222.size a
  hwx3_0 : ∀ i : grid3.Coords, EltTy.bits .f32 = 32 ∨ (Rect.block (s := S50000x222) S2000x222.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x222.size a ≤ S1x222.size a
  hwx3_1 : ∀ i : grid3.Coords, EltTy.bits .f32 = 32 ∨ (Rect.block (s := S1x222) S1x222.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x222.size a ≤ S50000x222.size a
  hwx3_2 : ∀ i : grid3.Coords, EltTy.bits .f32 = 32 ∨ (Rect.block (s := S50000x222) S2000x222.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x222.size a ≤ S50000x222.size a
  hwx4_0 : ∀ i : grid4.Coords, EltTy.bits .f32 = 32 ∨ (Rect.block (s := S50000x222) S2000x222.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S222x222.size a ≤ S222x222.size a
  hwx4_1 : ∀ i : grid4.Coords, EltTy.bits .f32 = 32 ∨ (Rect.block (s := S222x222) S222x222.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x222.size a ≤ S50000x222.size a
  hwx4_2 : ∀ i : grid4.Coords, EltTy.bits .f32 = 32 ∨ (Rect.block (s := S50000x222) S2000x222.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x222.size a ≤ S50000x222.size a
  hwx5_0 : ∀ i : grid5.Coords, EltTy.bits .f32 = 32 ∨ (Rect.block (s := S50000x222) S2000x222.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x222.size a ≤ S1x222.size a
  hwx5_1 : ∀ i : grid5.Coords, EltTy.bits .f32 = 32 ∨ (Rect.block (s := S1x222) S1x222.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x222.size a ≤ S50000x222.size a
  hwx5_2 : ∀ i : grid5.Coords, EltTy.bits .f32 = 32 ∨ (Rect.block (s := S50000x222) S2000x222.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2000x222.size a ≤ S2000x222.size a
  hwx6_0 : ∀ i : grid6.Coords, EltTy.bits .f32 = 32 ∨ (Rect.block (s := S2000x222) S2000x222.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S222x512.size a ≤ S222x512.size a
  hwx6_1 : ∀ i : grid6.Coords, EltTy.bits .f32 = 32 ∨ (Rect.block (s := S222x512) S222x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S2000x1.size a ≤ S2000x1.size a
  hwx6_7 : ∀ i : grid6.Coords, EltTy.bits .f32 = 32 ∨ (Rect.block (s := S2000x1) S2000x1.size (cc6_transform_7 i) (hinb6_7 i)).WholeWords (EltTy.packing .f32)

variable [Facts₀]

def gather_S118x200_S50000x1_S50000x200_1_0_n_n_0_1_1200 : GatherDims S118x200 S50000x1 S50000x200 where
  offsetDims := [1]
  collapsedSliceDims := [0]
  operandBatchingDims := []
  startIndicesBatchingDims := []
  startIndexMap := [0]
  indexVectorDim := 1
  sliceSizes := ![1, 200]
  wf := gather_S118x200_S50000x1_S50000x200_1_0_n_n_0_1_1200_wf
def gather_S16x10_S50000x1_S50000x10_1_0_n_n_0_1_110 : GatherDims S16x10 S50000x1 S50000x10 where
  offsetDims := [1]
  collapsedSliceDims := [0]
  operandBatchingDims := []
  startIndicesBatchingDims := []
  startIndexMap := [0]
  indexVectorDim := 1
  sliceSizes := ![1, 10]
  wf := gather_S16x10_S50000x1_S50000x10_1_0_n_n_0_1_110_wf
def gather_S64x10_S50000x1_S50000x10_1_0_n_n_0_1_110 : GatherDims S64x10 S50000x1 S50000x10 where
  offsetDims := [1]
  collapsedSliceDims := [0]
  operandBatchingDims := []
  startIndicesBatchingDims := []
  startIndexMap := [0]
  indexVectorDim := 1
  sliceSizes := ![1, 10]
  wf := gather_S64x10_S50000x1_S50000x10_1_0_n_n_0_1_110_wf
def scatter_S50000_S410000x1_S410000_n_0_0_1 : ScatterDims S50000 S410000x1 S410000 where
  updateWindowDims := []
  insertedWindowDims := [0]
  scatterDimsToOperandDims := [0]
  indexVectorDim := 1
  wf := scatter_S50000_S410000x1_S410000_n_0_0_1_wf
def gather_S50000_S410000x1_S410000_n_0_n_n_0_1_1 : GatherDims S50000 S410000x1 S410000 where
  offsetDims := []
  collapsedSliceDims := [0]
  operandBatchingDims := []
  startIndicesBatchingDims := []
  startIndexMap := [0]
  indexVectorDim := 1
  sliceSizes := ![1]
  wf := gather_S50000_S410000x1_S410000_n_0_n_n_0_1_1_wf
def dot_S2000x222_S222x222_S2000x222_1_0_0_1_n_n : DotDims S2000x222 S222x222 S2000x222 where
  lhsContracting := [1]
  rhsContracting := [0]
  lhsNonContracting := [0]
  rhsNonContracting := [1]
  lhsBatch := []
  rhsBatch := []
  wf := dot_S2000x222_S222x222_S2000x222_1_0_0_1_n_n_wf
def gather_S50000x222_S410000x1_S410000x222_1_0_n_n_0_1_1222 : GatherDims S50000x222 S410000x1 S410000x222 where
  offsetDims := [1]
  collapsedSliceDims := [0]
  operandBatchingDims := []
  startIndicesBatchingDims := []
  startIndexMap := [0]
  indexVectorDim := 1
  sliceSizes := ![1, 222]
  wf := gather_S50000x222_S410000x1_S410000x222_1_0_n_n_0_1_1222_wf
def scatter_S50000x222_S410000x1_S410000x222_1_0_0_1 : ScatterDims S50000x222 S410000x1 S410000x222 where
  updateWindowDims := [1]
  insertedWindowDims := [0]
  scatterDimsToOperandDims := [0]
  indexVectorDim := 1
  wf := scatter_S50000x222_S410000x1_S410000x222_1_0_0_1_wf
def scatter_S2000x222_S50000x1_S50000x222_1_0_0_1 : ScatterDims S2000x222 S50000x1 S50000x222 where
  updateWindowDims := [1]
  insertedWindowDims := [0]
  scatterDimsToOperandDims := [0]
  indexVectorDim := 1
  wf := scatter_S2000x222_S50000x1_S50000x222_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x222_S222x512_S2000x512_1_0_0_1_n_n : DotDims S2000x222 S222x512 S2000x512 where
  lhsContracting := [1]
  rhsContracting := [0]
  lhsNonContracting := [0]
  rhsNonContracting := [1]
  lhsBatch := []
  rhsBatch := []
  wf := dot_S2000x222_S222x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v21) S2000x222.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S222x222.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S2000x222.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v69) S2000x222.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S1x222.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S2000x222.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S2000x222.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S222x222.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2000x222.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S2000x222.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x222.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S2000x222.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S2000x222.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S222x222.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S2000x222.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S2000x222.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1x222.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S2000x222.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v115) S2000x222.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S222x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v116) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg17) S512x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v117) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg19) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v118) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v119) S2000x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000 : Shape := ⟨1, ![50000]⟩
abbrev S50000x2 : Shape := ⟨2, ![50000, 2]⟩
abbrev S2x360000 : Shape := ⟨2, ![2, 360000]⟩
abbrev S118x200 : Shape := ⟨2, ![118, 200]⟩
abbrev S16x10 : Shape := ⟨2, ![16, 10]⟩
abbrev S64x10 : Shape := ⟨2, ![64, 10]⟩
abbrev S222x222 : Shape := ⟨2, ![222, 222]⟩
abbrev S222 : Shape := ⟨1, ![222]⟩
abbrev S222x512 : Shape := ⟨2, ![222, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x200 : Shape := ⟨2, ![50000, 200]⟩
abbrev S50000x10 : Shape := ⟨2, ![50000, 10]⟩
abbrev S50000x222 : Shape := ⟨2, ![50000, 222]⟩
abbrev S1x360000 : Shape := ⟨2, ![1, 360000]⟩
abbrev S360000 : Shape := ⟨1, ![360000]⟩
abbrev S410000 : Shape := ⟨1, ![410000]⟩
abbrev S410000x1 : Shape := ⟨2, ![410000, 1]⟩
abbrev S410000x222 : Shape := ⟨2, ![410000, 222]⟩
abbrev S1x222 : Shape := ⟨2, ![1, 222]⟩
abbrev S2000x222 : Shape := ⟨2, ![2000, 222]⟩
abbrev S2000 : Shape := ⟨1, ![2000]⟩
abbrev S2000x1 : Shape := ⟨2, ![2000, 1]⟩
abbrev S2000x512 : Shape := ⟨2, ![2000, 512]⟩
abbrev S1x512 : Shape := ⟨2, ![1, 512]⟩
abbrev S2000x128 : Shape := ⟨2, ![2000, 128]⟩
abbrev S1x128 : Shape := ⟨2, ![1, 128]⟩
abbrev S1x1 : Shape := ⟨2, ![1, 1]⟩

abbrev nBuf : Space → Nat
  | .hbm => 327
  | .vmem => 0
  | .smem => 0
  | _ => 0

abbrev hbmTy0_0 (i : Nat) : BufTy := match i % 128 with
  | 0 => ⟨S50000, .i32⟩
  | 1 => ⟨S50000, .i32⟩
  | 2 => ⟨S50000, .i32⟩
  | 3 => ⟨S50000x2, .f32⟩
  | 4 => ⟨S2x360000, .i32⟩
  | 5 => ⟨S50000, .i32⟩
  | 6 => ⟨S118x200, .f32⟩
  | 7 => ⟨S16x10, .f32⟩
  | 8 => ⟨S64x10, .f32⟩
  | 9 => ⟨S222x222, .f32⟩
  | 10 => ⟨S222, .f32⟩
  | 11 => ⟨S222x222, .f32⟩
  | 12 => ⟨S222, .f32⟩
  | 13 => ⟨S222x222, .f32⟩
  | 14 => ⟨S222, .f32⟩
  | 15 => ⟨S222x512, .f32⟩
  | 16 => ⟨S512, .f32⟩
  | 17 => ⟨S512x128, .f32⟩
  | 18 => ⟨S128, .f32⟩
  | 19 => ⟨S128x1, .f32⟩
  | 20 => ⟨S1, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x200, .f32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x10, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x10, .f32⟩
  | 48 => ⟨S50000x222, .f32⟩
  | 49 => ⟨S50000, .i32⟩
  | 50 => ⟨S1x360000, .i32⟩
  | 51 => ⟨S360000, .i32⟩
  | 52 => ⟨S410000, .i32⟩
  | 53 => ⟨S1x360000, .i32⟩
  | 54 => ⟨S360000, .i32⟩
  | 55 => ⟨S410000, .i32⟩
  | 56 => ⟨S50000x222, .f32⟩
  | 57 => ⟨S_, .f32⟩
  | 58 => ⟨S50000, .f32⟩
  | 59 => ⟨S_, .i32⟩
  | 60 => ⟨S410000, .i32⟩
  | 61 => ⟨S410000, .i1⟩
  | 62 => ⟨S_, .i32⟩
  | 63 => ⟨S410000, .i32⟩
  | 64 => ⟨S410000, .i32⟩
  | 65 => ⟨S410000, .i32⟩
  | 66 => ⟨S410000x1, .i32⟩
  | 67 => ⟨S_, .f32⟩
  | 68 => ⟨S410000, .f32⟩
  | 69 => ⟨S50000, .f32⟩
  | 70 => ⟨S_, .f32⟩
  | 71 => ⟨S50000, .f32⟩
  | 72 => ⟨S50000, .f32⟩
  | 73 => ⟨S50000, .f32⟩
  | 74 => ⟨S_, .i32⟩
  | 75 => ⟨S410000, .i32⟩
  | 76 => ⟨S410000, .i1⟩
  | 77 => ⟨S_, .i32⟩
  | 78 => ⟨S410000, .i32⟩
  | 79 => ⟨S410000, .i32⟩
  | 80 => ⟨S410000, .i32⟩
  | 81 => ⟨S410000x1, .i32⟩
  | 82 => ⟨S410000, .f32⟩
  | 83 => ⟨S_, .i32⟩
  | 84 => ⟨S410000, .i32⟩
  | 85 => ⟨S410000, .i1⟩
  | 86 => ⟨S_, .i32⟩
  | 87 => ⟨S410000, .i32⟩
  | 88 => ⟨S410000, .i32⟩
  | 89 => ⟨S410000, .i32⟩
  | 90 => ⟨S410000x1, .i32⟩
  | 91 => ⟨S410000, .f32⟩
  | 92 => ⟨S410000, .f32⟩
  | 93 => ⟨S410000x1, .f32⟩
  | 94 => ⟨S_, .i32⟩
  | 95 => ⟨S410000, .i32⟩
  | 96 => ⟨S410000, .i1⟩
  | 97 => ⟨S_, .i32⟩
  | 98 => ⟨S410000, .i32⟩
  | 99 => ⟨S410000, .i32⟩
  | 100 => ⟨S410000, .i32⟩
  | 101 => ⟨S410000x1, .i32⟩
  | 102 => ⟨S410000x222, .f32⟩
  | 103 => ⟨S410000x222, .f32⟩
  | 104 => ⟨S410000x222, .f32⟩
  | 105 => ⟨S_, .f32⟩
  | 106 => ⟨S50000x222, .f32⟩
  | 107 => ⟨S410000x1, .i32⟩
  | 108 => ⟨S50000x222, .f32⟩
  | 109 => ⟨S1x222, .f32⟩
  | 110 => ⟨S50000x222, .f32⟩
  | 111 => ⟨S50000x222, .f32⟩
  | 112 => ⟨S_, .f32⟩
  | 113 => ⟨S50000x222, .f32⟩
  | 114 => ⟨S50000x222, .i1⟩
  | 115 => ⟨S_, .f32⟩
  | 116 => ⟨S50000x222, .f32⟩
  | 117 => ⟨S50000x222, .i1⟩
  | 118 => ⟨S_, .f32⟩
  | 119 => ⟨S_, .f32⟩
  | 120 => ⟨S50000x222, .f32⟩
  | 121 => ⟨S50000x222, .f32⟩
  | 122 => ⟨S50000x222, .f32⟩
  | 123 => ⟨S_, .f32⟩
  | 124 => ⟨S50000x222, .f32⟩
  | 125 => ⟨S50000x222, .f32⟩
  | 126 => ⟨S50000x222, .f32⟩
  | 127 => ⟨S50000x222, .f32⟩
  | _ => ⟨S50000, .i32⟩

abbrev hbmTy0_1 (i : Nat) : BufTy := match i % 128 with
  | 0 => ⟨S_, .f32⟩
  | 1 => ⟨S50000, .f32⟩
  | 2 => ⟨S_, .i32⟩
  | 3 => ⟨S410000, .i32⟩
  | 4 => ⟨S410000, .i1⟩
  | 5 => ⟨S_, .i32⟩
  | 6 => ⟨S410000, .i32⟩
  | 7 => ⟨S410000, .i32⟩
  | 8 => ⟨S410000, .i32⟩
  | 9 => ⟨S410000x1, .i32⟩
  | 10 => ⟨S_, .f32⟩
  | 11 => ⟨S410000, .f32⟩
  | 12 => ⟨S50000, .f32⟩
  | 13 => ⟨S_, .f32⟩
  | 14 => ⟨S50000, .f32⟩
  | 15 => ⟨S50000, .f32⟩
  | 16 => ⟨S50000, .f32⟩
  | 17 => ⟨S_, .i32⟩
  | 18 => ⟨S410000, .i32⟩
  | 19 => ⟨S410000, .i1⟩
  | 20 => ⟨S_, .i32⟩
  | 21 => ⟨S410000, .i32⟩
  | 22 => ⟨S410000, .i32⟩
  | 23 => ⟨S410000, .i32⟩
  | 24 => ⟨S410000x1, .i32⟩
  | 25 => ⟨S410000, .f32⟩
  | 26 => ⟨S_, .i32⟩
  | 27 => ⟨S410000, .i32⟩
  | 28 => ⟨S410000, .i1⟩
  | 29 => ⟨S_, .i32⟩
  | 30 => ⟨S410000, .i32⟩
  | 31 => ⟨S410000, .i32⟩
  | 32 => ⟨S410000, .i32⟩
  | 33 => ⟨S410000x1, .i32⟩
  | 34 => ⟨S410000, .f32⟩
  | 35 => ⟨S410000, .f32⟩
  | 36 => ⟨S410000x1, .f32⟩
  | 37 => ⟨S_, .i32⟩
  | 38 => ⟨S410000, .i32⟩
  | 39 => ⟨S410000, .i1⟩
  | 40 => ⟨S_, .i32⟩
  | 41 => ⟨S410000, .i32⟩
  | 42 => ⟨S410000, .i32⟩
  | 43 => ⟨S410000, .i32⟩
  | 44 => ⟨S410000x1, .i32⟩
  | 45 => ⟨S410000x222, .f32⟩
  | 46 => ⟨S410000x222, .f32⟩
  | 47 => ⟨S410000x222, .f32⟩
  | 48 => ⟨S_, .f32⟩
  | 49 => ⟨S50000x222, .f32⟩
  | 50 => ⟨S410000x1, .i32⟩
  | 51 => ⟨S50000x222, .f32⟩
  | 52 => ⟨S1x222, .f32⟩
  | 53 => ⟨S50000x222, .f32⟩
  | 54 => ⟨S50000x222, .f32⟩
  | 55 => ⟨S_, .f32⟩
  | 56 => ⟨S50000x222, .f32⟩
  | 57 => ⟨S50000x222, .i1⟩
  | 58 => ⟨S_, .f32⟩
  | 59 => ⟨S50000x222, .f32⟩
  | 60 => ⟨S50000x222, .i1⟩
  | 61 => ⟨S_, .f32⟩
  | 62 => ⟨S_, .f32⟩
  | 63 => ⟨S50000x222, .f32⟩
  | 64 => ⟨S50000x222, .f32⟩
  | 65 => ⟨S50000x222, .f32⟩
  | 66 => ⟨S_, .f32⟩
  | 67 => ⟨S50000x222, .f32⟩
  | 68 => ⟨S50000x222, .f32⟩
  | 69 => ⟨S50000x222, .f32⟩
  | 70 => ⟨S50000x222, .f32⟩
  | 71 => ⟨S_, .f32⟩
  | 72 => ⟨S50000, .f32⟩
  | 73 => ⟨S_, .i32⟩
  | 74 => ⟨S410000, .i32⟩
  | 75 => ⟨S410000, .i1⟩
  | 76 => ⟨S_, .i32⟩
  | 77 => ⟨S410000, .i32⟩
  | 78 => ⟨S410000, .i32⟩
  | 79 => ⟨S410000, .i32⟩
  | 80 => ⟨S410000x1, .i32⟩
  | 81 => ⟨S_, .f32⟩
  | 82 => ⟨S410000, .f32⟩
  | 83 => ⟨S50000, .f32⟩
  | 84 => ⟨S_, .f32⟩
  | 85 => ⟨S50000, .f32⟩
  | 86 => ⟨S50000, .f32⟩
  | 87 => ⟨S50000, .f32⟩
  | 88 => ⟨S_, .i32⟩
  | 89 => ⟨S410000, .i32⟩
  | 90 => ⟨S410000, .i1⟩
  | 91 => ⟨S_, .i32⟩
  | 92 => ⟨S410000, .i32⟩
  | 93 => ⟨S410000, .i32⟩
  | 94 => ⟨S410000, .i32⟩
  | 95 => ⟨S410000x1, .i32⟩
  | 96 => ⟨S410000, .f32⟩
  | 97 => ⟨S_, .i32⟩
  | 98 => ⟨S410000, .i32⟩
  | 99 => ⟨S410000, .i1⟩
  | 100 => ⟨S_, .i32⟩
  | 101 => ⟨S410000, .i32⟩
  | 102 => ⟨S410000, .i32⟩
  | 103 => ⟨S410000, .i32⟩
  | 104 => ⟨S410000x1, .i32⟩
  | 105 => ⟨S410000, .f32⟩
  | 106 => ⟨S410000, .f32⟩
  | 107 => ⟨S410000x1, .f32⟩
  | 108 => ⟨S_, .i32⟩
  | 109 => ⟨S410000, .i32⟩
  | 110 => ⟨S410000, .i1⟩
  | 111 => ⟨S_, .i32⟩
  | 112 => ⟨S410000, .i32⟩
  | 113 => ⟨S410000, .i32⟩
  | 114 => ⟨S410000, .i32⟩
  | 115 => ⟨S410000x1, .i32⟩
  | 116 => ⟨S410000x222, .f32⟩
  | 117 => ⟨S410000x222, .f32⟩
  | 118 => ⟨S410000x222, .f32⟩
  | 119 => ⟨S_, .f32⟩
  | 120 => ⟨S50000x222, .f32⟩
  | 121 => ⟨S410000x1, .i32⟩
  | 122 => ⟨S50000x222, .f32⟩
  | 123 => ⟨S1x222, .f32⟩
  | 124 => ⟨S50000x222, .f32⟩
  | 125 => ⟨S50000x222, .f32⟩
  | 126 => ⟨S_, .f32⟩
  | 127 => ⟨S50000x222, .f32⟩
  | _ => ⟨S50000, .i32⟩

abbrev hbmTy0_2 (i : Nat) : BufTy := match i % 128 with
  | 0 => ⟨S50000x222, .i1⟩
  | 1 => ⟨S_, .f32⟩
  | 2 => ⟨S50000x222, .f32⟩
  | 3 => ⟨S50000x222, .i1⟩
  | 4 => ⟨S_, .f32⟩
  | 5 => ⟨S_, .f32⟩
  | 6 => ⟨S50000x222, .f32⟩
  | 7 => ⟨S50000x222, .f32⟩
  | 8 => ⟨S50000x222, .f32⟩
  | 9 => ⟨S_, .f32⟩
  | 10 => ⟨S50000x222, .f32⟩
  | 11 => ⟨S50000x222, .f32⟩
  | 12 => ⟨S50000x222, .f32⟩
  | 13 => ⟨S_, .f32⟩
  | 14 => ⟨S2000x222, .f32⟩
  | 15 => ⟨S50000x1, .i32⟩
  | 16 => ⟨S2000x222, .f32⟩
  | 17 => ⟨S_, .f32⟩
  | 18 => ⟨S50000, .f32⟩
  | 19 => ⟨S_, .f32⟩
  | 20 => ⟨S2000, .f32⟩
  | 21 => ⟨S50000x1, .i32⟩
  | 22 => ⟨S2000, .f32⟩
  | 23 => ⟨S_, .f32⟩
  | 24 => ⟨S2000, .f32⟩
  | 25 => ⟨S2000, .f32⟩
  | 26 => ⟨S2000x1, .f32⟩
  | 27 => ⟨S2000x222, .f32⟩
  | 28 => ⟨S2000x222, .f32⟩
  | 29 => ⟨S2000x512, .f32⟩
  | 30 => ⟨S1x512, .f32⟩
  | 31 => ⟨S2000x512, .f32⟩
  | 32 => ⟨S2000x512, .f32⟩
  | 33 => ⟨S_, .f32⟩
  | 34 => ⟨S2000x512, .f32⟩
  | 35 => ⟨S2000x512, .i1⟩
  | 36 => ⟨S_, .f32⟩
  | 37 => ⟨S2000x512, .f32⟩
  | 38 => ⟨S2000x512, .i1⟩
  | 39 => ⟨S_, .f32⟩
  | 40 => ⟨S_, .f32⟩
  | 41 => ⟨S2000x512, .f32⟩
  | 42 => ⟨S2000x512, .f32⟩
  | 43 => ⟨S2000x512, .f32⟩
  | 44 => ⟨S_, .f32⟩
  | 45 => ⟨S2000x512, .f32⟩
  | 46 => ⟨S2000x512, .f32⟩
  | 47 => ⟨S2000x512, .f32⟩
  | 48 => ⟨S2000x128, .f32⟩
  | 49 => ⟨S1x128, .f32⟩
  | 50 => ⟨S2000x128, .f32⟩
  | 51 => ⟨S2000x128, .f32⟩
  | 52 => ⟨S_, .f32⟩
  | 53 => ⟨S2000x128, .f32⟩
  | 54 => ⟨S2000x128, .i1⟩
  | 55 => ⟨S_, .f32⟩
  | 56 => ⟨S2000x128, .f32⟩
  | 57 => ⟨S2000x128, .i1⟩
  | 58 => ⟨S_, .f32⟩
  | 59 => ⟨S_, .f32⟩
  | 60 => ⟨S2000x128, .f32⟩
  | 61 => ⟨S2000x128, .f32⟩
  | 62 => ⟨S2000x128, .f32⟩
  | 63 => ⟨S_, .f32⟩
  | 64 => ⟨S2000x128, .f32⟩
  | 65 => ⟨S2000x128, .f32⟩
  | 66 => ⟨S2000x128, .f32⟩
  | 67 => ⟨S2000x1, .f32⟩
  | 68 => ⟨S1x1, .f32⟩
  | 69 => ⟨S2000x1, .f32⟩
  | 70 => ⟨S2000x1, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_v43 : Ref sig .tc := ⟨.hbm, 76, rfl⟩
abbrev main_c_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_13 : Ref sig .tc := ⟨.hbm, 94, rfl⟩
abbrev main_v58 : Ref sig .tc := ⟨.hbm, 95, rfl⟩
abbrev main_v59 : Ref sig .tc := ⟨.hbm, 96, rfl⟩
abbrev main_c_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call0_cst : Ref sig .tc := ⟨.hbm, 112, rfl⟩
abbrev main_call0_v0 : Ref sig .tc := ⟨.hbm, 113, rfl⟩
abbrev main_call0_v1 : Ref sig .tc := ⟨.hbm, 114, rfl⟩
abbrev main_call0_cst_0 : Ref sig .tc := ⟨.hbm, 115, rfl⟩
abbrev main_call0_v2 : Ref sig .tc := ⟨.hbm, 116, rfl⟩
abbrev main_call0_v3 : Ref sig .tc := ⟨.hbm, 117, rfl⟩
abbrev main_call0_cst_1 : Ref sig .tc := ⟨.hbm, 118, rfl⟩
abbrev main_call0_call0_v0 : Ref sig .tc := ⟨.hbm, 119, rfl⟩
abbrev main_call0_call0_v1 : Ref sig .tc := ⟨.hbm, 120, rfl⟩
abbrev main_call0_v4 : Ref sig .tc := ⟨.hbm, 121, rfl⟩
abbrev main_call0_v5 : Ref sig .tc := ⟨.hbm, 122, rfl⟩
abbrev main_call0_cst_2 : Ref sig .tc := ⟨.hbm, 123, rfl⟩
abbrev main_call0_v6 : Ref sig .tc := ⟨.hbm, 124, rfl⟩
abbrev main_call0_v7 : Ref sig .tc := ⟨.hbm, 125, rfl⟩
abbrev main_v73 : Ref sig .tc := ⟨.hbm, 126, rfl⟩
abbrev main_v74 : Ref sig .tc := ⟨.hbm, 127, rfl⟩
abbrev main_cst_16 : Ref sig .tc := ⟨.hbm, 128, rfl⟩
abbrev main_v75 : Ref sig .tc := ⟨.hbm, 129, rfl⟩
abbrev main_c_17 : Ref sig .tc := ⟨.hbm, 130, rfl⟩
abbrev main_v76 : Ref sig .tc := ⟨.hbm, 131, rfl⟩
abbrev main_v77 : Ref sig .tc := ⟨.hbm, 132, rfl⟩
abbrev main_c_18 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_19 : Ref sig .tc := ⟨.hbm, 138, rfl⟩
abbrev main_v82 : Ref sig .tc := ⟨.hbm, 139, rfl⟩
abbrev main_v83 : Ref sig .tc := ⟨.hbm, 140, rfl⟩
abbrev main_cst_20 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_21 : Ref sig .tc := ⟨.hbm, 145, rfl⟩
abbrev main_v87 : Ref sig .tc := ⟨.hbm, 146, rfl⟩
abbrev main_v88 : Ref sig .tc := ⟨.hbm, 147, rfl⟩
abbrev main_c_22 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_c_23 : Ref sig .tc := ⟨.hbm, 154, rfl⟩
abbrev main_v94 : Ref sig .tc := ⟨.hbm, 155, rfl⟩
abbrev main_v95 : Ref sig .tc := ⟨.hbm, 156, rfl⟩
abbrev main_c_24 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_c_25 : Ref sig .tc := ⟨.hbm, 165, rfl⟩
abbrev main_v103 : Ref sig .tc := ⟨.hbm, 166, rfl⟩
abbrev main_v104 : Ref sig .tc := ⟨.hbm, 167, rfl⟩
abbrev main_c_26 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_27 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_call1_cst : Ref sig .tc := ⟨.hbm, 183, rfl⟩
abbrev main_call1_v0 : Ref sig .tc := ⟨.hbm, 184, rfl⟩
abbrev main_call1_v1 : Ref sig .tc := ⟨.hbm, 185, rfl⟩
abbrev main_call1_cst_0 : Ref sig .tc := ⟨.hbm, 186, rfl⟩
abbrev main_call1_v2 : Ref sig .tc := ⟨.hbm, 187, rfl⟩
abbrev main_call1_v3 : Ref sig .tc := ⟨.hbm, 188, rfl⟩
abbrev main_call1_cst_1 : Ref sig .tc := ⟨.hbm, 189, rfl⟩
abbrev main_call1_call0_v0 : Ref sig .tc := ⟨.hbm, 190, rfl⟩
abbrev main_call1_call0_v1 : Ref sig .tc := ⟨.hbm, 191, rfl⟩
abbrev main_call1_v4 : Ref sig .tc := ⟨.hbm, 192, rfl⟩
abbrev main_call1_v5 : Ref sig .tc := ⟨.hbm, 193, rfl⟩
abbrev main_call1_cst_2 : Ref sig .tc := ⟨.hbm, 194, rfl⟩
abbrev main_call1_v6 : Ref sig .tc := ⟨.hbm, 195, rfl⟩
abbrev main_call1_v7 : Ref sig .tc := ⟨.hbm, 196, rfl⟩
abbrev main_v118 : Ref sig .tc := ⟨.hbm, 197, rfl⟩
abbrev main_v119 : Ref sig .tc := ⟨.hbm, 198, rfl⟩
abbrev main_cst_28 : Ref sig .tc := ⟨.hbm, 199, rfl⟩
abbrev main_v120 : Ref sig .tc := ⟨.hbm, 200, rfl⟩
abbrev main_c_29 : Ref sig .tc := ⟨.hbm, 201, rfl⟩
abbrev main_v121 : Ref sig .tc := ⟨.hbm, 202, rfl⟩
abbrev main_v122 : Ref sig .tc := ⟨.hbm, 203, rfl⟩
abbrev main_c_30 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_cst_31 : Ref sig .tc := ⟨.hbm, 209, rfl⟩
abbrev main_v127 : Ref sig .tc := ⟨.hbm, 210, rfl⟩
abbrev main_v128 : Ref sig .tc := ⟨.hbm, 211, rfl⟩
abbrev main_cst_32 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_c_33 : Ref sig .tc := ⟨.hbm, 216, rfl⟩
abbrev main_v132 : Ref sig .tc := ⟨.hbm, 217, rfl⟩
abbrev main_v133 : Ref sig .tc := ⟨.hbm, 218, rfl⟩
abbrev main_c_34 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_c_35 : Ref sig .tc := ⟨.hbm, 225, rfl⟩
abbrev main_v139 : Ref sig .tc := ⟨.hbm, 226, rfl⟩
abbrev main_v140 : Ref sig .tc := ⟨.hbm, 227, rfl⟩
abbrev main_c_36 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_c_37 : Ref sig .tc := ⟨.hbm, 236, rfl⟩
abbrev main_v148 : Ref sig .tc := ⟨.hbm, 237, rfl⟩
abbrev main_v149 : Ref sig .tc := ⟨.hbm, 238, rfl⟩
abbrev main_c_38 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_39 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_call2_cst : Ref sig .tc := ⟨.hbm, 254, rfl⟩
abbrev main_call2_v0 : Ref sig .tc := ⟨.hbm, 255, rfl⟩
abbrev main_call2_v1 : Ref sig .tc := ⟨.hbm, 256, rfl⟩
abbrev main_call2_cst_0 : Ref sig .tc := ⟨.hbm, 257, rfl⟩
abbrev main_call2_v2 : Ref sig .tc := ⟨.hbm, 258, rfl⟩
abbrev main_call2_v3 : Ref sig .tc := ⟨.hbm, 259, rfl⟩
abbrev main_call2_cst_1 : Ref sig .tc := ⟨.hbm, 260, rfl⟩
abbrev main_call2_call0_v0 : Ref sig .tc := ⟨.hbm, 261, rfl⟩
abbrev main_call2_call0_v1 : Ref sig .tc := ⟨.hbm, 262, rfl⟩
abbrev main_call2_v4 : Ref sig .tc := ⟨.hbm, 263, rfl⟩
abbrev main_call2_v5 : Ref sig .tc := ⟨.hbm, 264, rfl⟩
abbrev main_call2_cst_2 : Ref sig .tc := ⟨.hbm, 265, rfl⟩
abbrev main_call2_v6 : Ref sig .tc := ⟨.hbm, 266, rfl⟩
abbrev main_call2_v7 : Ref sig .tc := ⟨.hbm, 267, rfl⟩
abbrev main_v163 : Ref sig .tc := ⟨.hbm, 268, rfl⟩
abbrev main_cst_40 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_cst_41 : Ref sig .tc := ⟨.hbm, 273, rfl⟩
abbrev main_v167 : Ref sig .tc := ⟨.hbm, 274, rfl⟩
abbrev main_cst_42 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_cst_43 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_call3_cst : Ref sig .tc := ⟨.hbm, 289, rfl⟩
abbrev main_call3_v0 : Ref sig .tc := ⟨.hbm, 290, rfl⟩
abbrev main_call3_v1 : Ref sig .tc := ⟨.hbm, 291, rfl⟩
abbrev main_call3_cst_0 : Ref sig .tc := ⟨.hbm, 292, rfl⟩
abbrev main_call3_v2 : Ref sig .tc := ⟨.hbm, 293, rfl⟩
abbrev main_call3_v3 : Ref sig .tc := ⟨.hbm, 294, rfl⟩
abbrev main_call3_cst_1 : Ref sig .tc := ⟨.hbm, 295, rfl⟩
abbrev main_call3_call0_v0 : Ref sig .tc := ⟨.hbm, 296, rfl⟩
abbrev main_call3_call0_v1 : Ref sig .tc := ⟨.hbm, 297, rfl⟩
abbrev main_call3_v4 : Ref sig .tc := ⟨.hbm, 298, rfl⟩
abbrev main_call3_v5 : Ref sig .tc := ⟨.hbm, 299, rfl⟩
abbrev main_call3_cst_2 : Ref sig .tc := ⟨.hbm, 300, rfl⟩
abbrev main_call3_v6 : Ref sig .tc := ⟨.hbm, 301, rfl⟩
abbrev main_call3_v7 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_call4_cst : Ref sig .tc := ⟨.hbm, 308, rfl⟩
abbrev main_call4_v0 : Ref sig .tc := ⟨.hbm, 309, rfl⟩
abbrev main_call4_v1 : Ref sig .tc := ⟨.hbm, 310, rfl⟩
abbrev main_call4_cst_0 : Ref sig .tc := ⟨.hbm, 311, rfl⟩
abbrev main_call4_v2 : Ref sig .tc := ⟨.hbm, 312, rfl⟩
abbrev main_call4_v3 : Ref sig .tc := ⟨.hbm, 313, rfl⟩
abbrev main_call4_cst_1 : Ref sig .tc := ⟨.hbm, 314, rfl⟩
abbrev main_call4_call0_v0 : Ref sig .tc := ⟨.hbm, 315, rfl⟩
abbrev main_call4_call0_v1 : Ref sig .tc := ⟨.hbm, 316, rfl⟩
abbrev main_call4_v4 : Ref sig .tc := ⟨.hbm, 317, rfl⟩
abbrev main_call4_v5 : Ref sig .tc := ⟨.hbm, 318, rfl⟩
abbrev main_call4_cst_2 : Ref sig .tc := ⟨.hbm, 319, rfl⟩
abbrev main_call4_v6 : Ref sig .tc := ⟨.hbm, 320, rfl⟩
abbrev main_call4_v7 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x200_S50000x10_S50000x10_S50000x2_S50000x222_d1 : Shape.Concatenates [S50000x200, S50000x10, S50000x10, S50000x2] S50000x222 1
  slices_S2x360000_S1x360000_0_0 : S2x360000.Slices ![0, 0] S1x360000
  shapeCasts_S1x360000_S360000 : S1x360000.ShapeCasts S360000
  concatenates_S360000_S50000_S410000_d0 : Shape.Concatenates [S360000, S50000] S410000 0
  slices_S2x360000_S1x360000_1_0 : S2x360000.Slices ![1, 0] S1x360000
  bcast_S_S410000 : S_.BroadcastsInDim S410000 (![] : Fin 0 → Fin S410000.rank)
  bcast_S410000_S410000x1_0 : S410000.BroadcastsInDim S410000x1 (![0] : Fin 1 → Fin S410000x1.rank)
  bcast_S410000x1_S410000x222_0_1 : S410000x1.BroadcastsInDim S410000x222 (![0, 1] : Fin 2 → Fin S410000x222.rank)
  bcast_S_S50000x222 : S_.BroadcastsInDim S50000x222 (![] : Fin 0 → Fin S50000x222.rank)
  bcast_S222_S1x222_1 : S222.BroadcastsInDim S1x222 (![1] : Fin 1 → Fin S1x222.rank)
  bcast_S1x222_S50000x222_0_1 : S1x222.BroadcastsInDim S50000x222 (![0, 1] : Fin 2 → Fin S50000x222.rank)
  bcast_S_S2000x222 : S_.BroadcastsInDim S2000x222 (![] : Fin 0 → Fin S2000x222.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x222_0_1 : S2000x1.BroadcastsInDim S2000x222 (![0, 1] : Fin 2 → Fin S2000x222.rank)
  bcast_S512_S1x512_1 : S512.BroadcastsInDim S1x512 (![1] : Fin 1 → Fin S1x512.rank)
  bcast_S1x512_S2000x512_0_1 : S1x512.BroadcastsInDim S2000x512 (![0, 1] : Fin 2 → Fin S2000x512.rank)
  bcast_S_S2000x512 : S_.BroadcastsInDim S2000x512 (![] : Fin 0 → Fin S2000x512.rank)
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  bcast_S_S2000x128 : S_.BroadcastsInDim S2000x128 (![] : Fin 0 → Fin S2000x128.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  gather_S118x200_S50000x1_S50000x200_1_0_n_n_0_1_1200_wf : GatherDims.WF S118x200 S50000x1 S50000x200 [1] [0] [] [0] [] 1 ![1, 200]
  gather_S16x10_S50000x1_S50000x10_1_0_n_n_0_1_110_wf : GatherDims.WF S16x10 S50000x1 S50000x10 [1] [0] [] [0] [] 1 ![1, 10]
  gather_S64x10_S50000x1_S50000x10_1_0_n_n_0_1_110_wf : GatherDims.WF S64x10 S50000x1 S50000x10 [1] [0] [] [0] [] 1 ![1, 10]
  dot_S50000x222_S222x222_S50000x222_1_0_0_1_n_n_wf : DotDims.WF S50000x222 S222x222 S50000x222 [1] [0] [0] [1] [] []
  scatter_S50000_S410000x1_S410000_n_0_0_1_wf : ScatterDims.WF S50000 S410000x1 S410000 [] [0] [0] 1
  gather_S50000_S410000x1_S410000_n_0_n_n_0_1_1_wf : GatherDims.WF S50000 S410000x1 S410000 [] [0] [] [0] [] 1 ![1]
  gather_S50000x222_S410000x1_S410000x222_1_0_n_n_0_1_1222_wf : GatherDims.WF S50000x222 S410000x1 S410000x222 [1] [0] [] [0] [] 1 ![1, 222]
  scatter_S50000x222_S410000x1_S410000x222_1_0_0_1_wf : ScatterDims.WF S50000x222 S410000x1 S410000x222 [1] [0] [0] 1
  scatter_S2000x222_S50000x1_S50000x222_1_0_0_1_wf : ScatterDims.WF S2000x222 S50000x1 S50000x222 [1] [0] [0] 1
  scatter_S2000_S50000x1_S50000_n_0_0_1_wf : ScatterDims.WF S2000 S50000x1 S50000 [] [0] [0] 1
  dot_S2000x222_S222x512_S2000x512_1_0_0_1_n_n_wf : DotDims.WF S2000x222 S222x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []

variable [Facts₀]

def gather_S118x200_S50000x1_S50000x200_1_0_n_n_0_1_1200 : GatherDims S118x200 S50000x1 S50000x200 where
  offsetDims := [1]
  collapsedSliceDims := [0]
  operandBatchingDims := []
  startIndicesBatchingDims := []
  startIndexMap := [0]
  indexVectorDim := 1
  sliceSizes := ![1, 200]
  wf := gather_S118x200_S50000x1_S50000x200_1_0_n_n_0_1_1200_wf
def gather_S16x10_S50000x1_S50000x10_1_0_n_n_0_1_110 : GatherDims S16x10 S50000x1 S50000x10 where
  offsetDims := [1]
  collapsedSliceDims := [0]
  operandBatchingDims := []
  startIndicesBatchingDims := []
  startIndexMap := [0]
  indexVectorDim := 1
  sliceSizes := ![1, 10]
  wf := gather_S16x10_S50000x1_S50000x10_1_0_n_n_0_1_110_wf
def gather_S64x10_S50000x1_S50000x10_1_0_n_n_0_1_110 : GatherDims S64x10 S50000x1 S50000x10 where
  offsetDims := [1]
  collapsedSliceDims := [0]
  operandBatchingDims := []
  startIndicesBatchingDims := []
  startIndexMap := [0]
  indexVectorDim := 1
  sliceSizes := ![1, 10]
  wf := gather_S64x10_S50000x1_S50000x10_1_0_n_n_0_1_110_wf
def dot_S50000x222_S222x222_S50000x222_1_0_0_1_n_n : DotDims S50000x222 S222x222 S50000x222 where
  lhsContracting := [1]
  rhsContracting := [0]
  lhsNonContracting := [0]
  rhsNonContracting := [1]
  lhsBatch := []
  rhsBatch := []
  wf := dot_S50000x222_S222x222_S50000x222_1_0_0_1_n_n_wf
def scatter_S50000_S410000x1_S410000_n_0_0_1 : ScatterDims S50000 S410000x1 S410000 where
  updateWindowDims := []
  insertedWindowDims := [0]
  scatterDimsToOperandDims := [0]
  indexVectorDim := 1
  wf := scatter_S50000_S410000x1_S410000_n_0_0_1_wf
def gather_S50000_S410000x1_S410000_n_0_n_n_0_1_1 : GatherDims S50000 S410000x1 S410000 where
  offsetDims := []
  collapsedSliceDims := [0]
  operandBatchingDims := []
  startIndicesBatchingDims := []
  startIndexMap := [0]
  indexVectorDim := 1
  sliceSizes := ![1]
  wf := gather_S50000_S410000x1_S410000_n_0_n_n_0_1_1_wf
def gather_S50000x222_S410000x1_S410000x222_1_0_n_n_0_1_1222 : GatherDims S50000x222 S410000x1 S410000x222 where
  offsetDims := [1]
  collapsedSliceDims := [0]
  operandBatchingDims := []
  startIndicesBatchingDims := []
  startIndexMap := [0]
  indexVectorDim := 1
  sliceSizes := ![1, 222]
  wf := gather_S50000x222_S410000x1_S410000x222_1_0_n_n_0_1_1222_wf
def scatter_S50000x222_S410000x1_S410000x222_1_0_0_1 : ScatterDims S50000x222 S410000x1 S410000x222 where
  updateWindowDims := [1]
  insertedWindowDims := [0]
  scatterDimsToOperandDims := [0]
  indexVectorDim := 1
  wf := scatter_S50000x222_S410000x1_S410000x222_1_0_0_1_wf
def scatter_S2000x222_S50000x1_S50000x222_1_0_0_1 : ScatterDims S2000x222 S50000x1 S50000x222 where
  updateWindowDims := [1]
  insertedWindowDims := [0]
  scatterDimsToOperandDims := [0]
  indexVectorDim := 1
  wf := scatter_S2000x222_S50000x1_S50000x222_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x222_S222x512_S2000x512_1_0_0_1_n_n : DotDims S2000x222 S222x512 S2000x512 where
  lhsContracting := [1]
  rhsContracting := [0]
  lhsNonContracting := [0]
  rhsNonContracting := [1]
  lhsBatch := []
  rhsBatch := []
  wf := dot_S2000x222_S222x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

class Facts : Prop extends Facts₀ where

variable [Facts]
-- ==== Proof.KReg0.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rOut0 : Rect S2000x222 := Rect.unit (s := S2000x222) ![0, 0] S2000x222.size inb_S2000x222_S2000x222_0_0

abbrev rW0 : Rect S222x222 := Rect.unit (s := S222x222) ![0, 0] S222x222.size inb_S222x222_S222x222_0_0

def out0_2 (x0 : Vec F S2000x222 .f32) (x1 : Vec F S222x222 .f32) : Vec F S2000x222 .f32 :=
  View.canon [⟨rOut0, k0_pay1 (View.ld x0 rOut0) (View.ld x1 rW0)⟩]

theorem cover0_2 (p0 : Vec F S2000x222 .f32) (y : S2000x222.Idx) :
    ∃ pc ∈ ([⟨rOut0, p0⟩] : List (View.Piece (Elt F) S2000x222 .f32)), y ∈ pc.1.set :=
  View.cover_of_tiled [⟨rOut0, p0⟩] S2000x222.size (by rfl) y

set_option maxHeartbeats 1000000 in
theorem sound_kernel0 (c : Dev nD) (E : Set ℕ) (i : grid0.Coords)
    (arg1 : Memref sig .tc .vmem S2000x222 .f32) (harg1 : arg1.IsWhole)
    (arg2 : Memref sig .tc .vmem S222x222 .f32) (harg2 : arg2.IsWhole)
    (arg3 : Memref sig .tc .vmem S2000x222 .f32) (harg3 : arg3.IsWhole)
    (x0 : Vec F S2000x222 .f32) (x1 : Vec F S222x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rOut1 : Rect S2000x222 := Rect.unit (s := S2000x222) ![0, 0] S2000x222.size inb_S2000x222_S2000x222_0_0

abbrev rB1 : Rect S1x222 := Rect.unit (s := S1x222) ![0, 0] S1x222.size inb_S1x222_S1x222_0_0

def out1_2 (x0 : Vec F S2000x222 .f32) (x1 : Vec F S1x222 .f32) : Vec F S2000x222 .f32 :=
  View.canon [⟨rOut1, k1_pay1 (View.ld x0 rOut1) (View.ld x1 rB1)⟩]

theorem cover1_2 (p0 : Vec F S2000x222 .f32) (y : S2000x222.Idx) :
    ∃ pc ∈ ([⟨rOut1, p0⟩] : List (View.Piece (Elt F) S2000x222 .f32)), y ∈ pc.1.set :=
  View.cover_of_tiled [⟨rOut1, p0⟩] S2000x222.size (by rfl) y

set_option maxHeartbeats 1000000 in
theorem sound_kernel1 (c : Dev nD) (E : Set ℕ) (i : grid1.Coords)
    (arg1 : Memref sig .tc .vmem S2000x222 .f32) (harg1 : arg1.IsWhole)
    (arg2 : Memref sig .tc .vmem S1x222 .f32) (harg2 : arg2.IsWhole)
    (arg3 : Memref sig .tc .vmem S2000x222 .f32) (harg3 : arg3.IsWhole)
    (x0 : Vec F S2000x222 .f32) (x1 : Vec F S1x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_elu_kernel i arg1 harg1 arg2 harg2 arg3 harg3) K := by
  simp only [cc1__bias_elu_kernel_eq_skeleton]; unfold cc1__bias_elu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import proofs.«123287_j41248865910880_1_alg».proof.Proof.KReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rOut2 : Rect S2000x222 := Rect.unit (s := S2000x222) ![0, 0] S2000x222.size inb_S2000x222_S2000x222_0_0

abbrev rW2 : Rect S222x222 := Rect.unit (s := S222x222) ![0, 0] S222x222.size inb_S222x222_S222x222_0_0

def out2_2 (x0 : Vec F S2000x222 .f32) (x1 : Vec F S222x222 .f32) : Vec F S2000x222 .f32 :=
  View.canon [⟨rOut2, k2_pay1 (View.ld x0 rOut2) (View.ld x1 rW2)⟩]

theorem sound_kernel2 (c : Dev nD) (E : Set ℕ) (i : grid2.Coords)
    (arg1 : Memref sig .tc .vmem S2000x222 .f32) (harg1 : arg1.IsWhole)
    (arg2 : Memref sig .tc .vmem S222x222 .f32) (harg2 : arg2.IsWhole)
    (arg3 : Memref sig .tc .vmem S2000x222 .f32) (harg3 : arg3.IsWhole)
    (x0 : Vec F S2000x222 .f32) (x1 : Vec F S222x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K :=
  sound_kernel0 c E i arg1 harg1 arg2 harg2 arg3 harg3 x0 x1 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import proofs.«123287_j41248865910880_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rOut3 : Rect S2000x222 := Rect.unit (s := S2000x222) ![0, 0] S2000x222.size inb_S2000x222_S2000x222_0_0

abbrev rB3 : Rect S1x222 := Rect.unit (s := S1x222) ![0, 0] S1x222.size inb_S1x222_S1x222_0_0

def out3_2 (x0 : Vec F S2000x222 .f32) (x1 : Vec F S1x222 .f32) : Vec F S2000x222 .f32 :=
  View.canon [⟨rOut3, k3_pay1 (View.ld x0 rOut3) (View.ld x1 rB3)⟩]

theorem sound_kernel3 (c : Dev nD) (E : Set ℕ) (i : grid3.Coords)
    (arg1 : Memref sig .tc .vmem S2000x222 .f32) (harg1 : arg1.IsWhole)
    (arg2 : Memref sig .tc .vmem S1x222 .f32) (harg2 : arg2.IsWhole)
    (arg3 : Memref sig .tc .vmem S2000x222 .f32) (harg3 : arg3.IsWhole)
    (x0 : Vec F S2000x222 .f32) (x1 : Vec F S1x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_elu_kernel i arg1 harg1 arg2 harg2 arg3 harg3) K :=
  sound_kernel1 c E i arg1 harg1 arg2 harg2 arg3 harg3 x0 x1 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl

theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import proofs.«123287_j41248865910880_1_alg».proof.Proof.KReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rOut4 : Rect S2000x222 := Rect.unit (s := S2000x222) ![0, 0] S2000x222.size inb_S2000x222_S2000x222_0_0

abbrev rW4 : Rect S222x222 := Rect.unit (s := S222x222) ![0, 0] S222x222.size inb_S222x222_S222x222_0_0

def out4_2 (x0 : Vec F S2000x222 .f32) (x1 : Vec F S222x222 .f32) : Vec F S2000x222 .f32 :=
  View.canon [⟨rOut4, k4_pay1 (View.ld x0 rOut4) (View.ld x1 rW4)⟩]

theorem sound_kernel4 (c : Dev nD) (E : Set ℕ) (i : grid4.Coords)
    (arg1 : Memref sig .tc .vmem S2000x222 .f32) (harg1 : arg1.IsWhole)
    (arg2 : Memref sig .tc .vmem S222x222 .f32) (harg2 : arg2.IsWhole)
    (arg3 : Memref sig .tc .vmem S2000x222 .f32) (harg3 : arg3.IsWhole)
    (x0 : Vec F S2000x222 .f32) (x1 : Vec F S222x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K :=
  sound_kernel0 c E i arg1 harg1 arg2 harg2 arg3 harg3 x0 x1 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl

theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KReg5.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import proofs.«123287_j41248865910880_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rOut5 : Rect S2000x222 := Rect.unit (s := S2000x222) ![0, 0] S2000x222.size inb_S2000x222_S2000x222_0_0

abbrev rB5 : Rect S1x222 := Rect.unit (s := S1x222) ![0, 0] S1x222.size inb_S1x222_S1x222_0_0

def out5_2 (x0 : Vec F S2000x222 .f32) (x1 : Vec F S1x222 .f32) : Vec F S2000x222 .f32 :=
  View.canon [⟨rOut5, k5_pay1 (View.ld x0 rOut5) (View.ld x1 rB5)⟩]

theorem sound_kernel5 (c : Dev nD) (E : Set ℕ) (i : grid5.Coords)
    (arg1 : Memref sig .tc .vmem S2000x222 .f32) (harg1 : arg1.IsWhole)
    (arg2 : Memref sig .tc .vmem S1x222 .f32) (harg2 : arg2.IsWhole)
    (arg3 : Memref sig .tc .vmem S2000x222 .f32) (harg3 : arg3.IsWhole)
    (x0 : Vec F S2000x222 .f32) (x1 : Vec F S1x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_elu_kernel i arg1 harg1 arg2 harg2 arg3 harg3) K :=
  sound_kernel1 c E i arg1 harg1 arg2 harg2 arg3 harg3 x0 x1 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl

theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KReg6.lean ====
import proofs.«123287_j41248865910880_1_alg».proof.Proof.Gen.Kernel.Launch
import proofs.«123287_j41248865910880_1_alg».proof.Proof.Gen.Kernel.Skeleton
import proofs.«123287_j41248865910880_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rIn6_0 : Rect S2000x222 := Rect.unit (s := S2000x222) ![0, 0] S2000x222.size inb_S2000x222_S2000x222_0_0

abbrev rIn6_1 : Rect S222x512 := Rect.unit (s := S222x512) ![0, 0] S222x512.size inb_S222x512_S222x512_0_0

abbrev rIn6_2 : Rect S1x512 := Rect.unit (s := S1x512) ![0, 0] S1x512.size inb_S1x512_S1x512_0_0

abbrev rIn6_3 : Rect S512x128 := Rect.unit (s := S512x128) ![0, 0] S512x128.size inb_S512x128_S512x128_0_0

abbrev rIn6_4 : Rect S1x128 := Rect.unit (s := S1x128) ![0, 0] S1x128.size inb_S1x128_S1x128_0_0

abbrev rIn6_5 : Rect S128x1 := Rect.unit (s := S128x1) ![0, 0] S128x1.size inb_S128x1_S128x1_0_0

abbrev rIn6_6 : Rect S1x1 := Rect.unit (s := S1x1) ![0, 0] S1x1.size inb_S1x1_S1x1_0_0

abbrev rOut6 : Rect S2000x1 := Rect.unit (s := S2000x1) ![0, 0] S2000x1.size inb_S2000x1_S2000x1_0_0

def out6_7 (x0 : Vec F S2000x222 .f32) (x1 : Vec F S222x512 .f32) (x2 : Vec F S1x512 .f32) (x3 : Vec F S512x128 .f32) (x4 : Vec F S1x128 .f32) (x5 : Vec F S128x1 .f32) (x6 : Vec F S1x1 .f32) : Vec F S2000x1 .f32 :=
  View.canon [⟨rOut6, k6_pay1 (View.ld x0 rIn6_0) (View.ld x1 rIn6_1) (View.ld x2 rIn6_2) (View.ld x3 rIn6_3) (View.ld x4 rIn6_4) (View.ld x5 rIn6_5) (View.ld x6 rIn6_6)⟩]

theorem cover6_7 (p0 : Vec F S2000x1 .f32) (y : S2000x1.Idx) :
    ∃ pc ∈ ([⟨rOut6, p0⟩] : List (View.Piece (Elt F) S2000x1 .f32)), y ∈ pc.1.set :=
  View.cover_of_tiled [⟨rOut6, p0⟩] S2000x1.size (by rfl) y

set_option maxHeartbeats 2000000 in
theorem sound_kernel6 (c : Dev nD) (E : Set ℕ) (i : grid6.Coords)
    (arg1 : Memref sig .tc .vmem S2000x222 .f32) (harg1 : arg1.IsWhole)
    (arg2 : Memref sig .tc .vmem S222x512 .f32) (harg2 : arg2.IsWhole)
    (arg3 : Memref sig .tc .vmem S1x512 .f32) (harg3 : arg3.IsWhole)
    (arg4 : Memref sig .tc .vmem S512x128 .f32) (harg4 : arg4.IsWhole)
    (arg5 : Memref sig .tc .vmem S1x128 .f32) (harg5 : arg5.IsWhole)
    (arg6 : Memref sig .tc .vmem S128x1 .f32) (harg6 : arg6.IsWhole)
    (arg7 : Memref sig .tc .vmem S1x1 .f32) (harg7 : arg7.IsWhole)
    (arg8 : Memref sig .tc .vmem S2000x1 .f32) (harg8 : arg8.IsWhole)
    (x0 : Vec F S2000x222 .f32) (x1 : Vec F S222x512 .f32) (x2 : Vec F S1x512 .f32) (x3 : Vec F S512x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8) K := by
  simp only [cc6__mlp_kernel_eq_skeleton]; unfold cc6__mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) : (dat6 V c).after 3 t = iblk6 V c 3 t := by dsimp only [dat6]

theorem after6_4 (c : Dev nD) (t : Fin cfg6.N) : (dat6 V c).after 4 t = iblk6 V c 4 t := by dsimp only [dat6]

theorem after6_5 (c : Dev nD) (t : Fin cfg6.N) : (dat6 V c).after 5 t = iblk6 V c 5 t := by dsimp only [dat6]

theorem after6_6 (c : Dev nD) (t : Fin cfg6.N) : (dat6 V c).after 6 t = iblk6 V c 6 t := by dsimp only [dat6]

theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl

theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl

theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl

theorem before6_6 (c : Dev nD) (t : Fin cfg6.N) (d) : (dat6 V c).before 6 t d = iblk6 V c 6 t :=
  ((dat6 V c).before_in_eq_fetched 6 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.LibSeg.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type} {Λ₀ : Idealize.SL.Sem.Labels} {P : Type} [Fintype P]

local notation "𝕄" => MT nD τ sig Unit Val ℕ (UR sig nD τ) ℕ

-- A buffer off a region's arrays, or an array the region hands back as it found it, is kept.
theorem withArrays_keep {gr W : Nat} (win : Fin W → Pipeline.WinSpec sig gr) (hinj : Function.Injective (Pipeline.arrRef win))
    (c : Dev nD) (V : Valuation τ sig Val) (A : (w : Fin W) → Buf Val ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∀ w, Pipeline.arrRef win w ≠ b
  · exact Pipeline.withArrays_of_ne win c V A b hb
  · obtain ⟨w, hw⟩ := not_forall.mp hb
    obtain rfl := not_not.mp hw
    exact (Pipeline.withArrays_arr win hinj c V A w).trans (h w rfl)

theorem withArrays_rest {gr W : Nat} (win : Fin W → Pipeline.WinSpec sig gr) (c : Dev nD) (V : Valuation τ sig Val)
    (A : (w : Fin W) → Buf Val ((win w).arr.view.loc (c.tc : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable (cfgs : P → Cfg sig Λ₀)

abbrev pcs : P → Pipeline.PCfg sig Λ₀ Val := fun p => (cfgs p).toPCfg
abbrev adm : (p : P) → (pcs (Val := Val) cfgs p).Adm := fun p => (cfgs p).toPCfg_adm

variable (pdats : (p : P) → (c : Dev nD) → Dat τ Val Unit ℕ (UR sig nD τ) ℕ (Pipeline.pin (pcs (Val := Val) cfgs) (adm cfgs) p) c)
  (defs₀ : Defs nD τ sig Val Λ₀)

set_option backward.isDefEq.respectTransparency.types false in
-- a kernel region between two contents of the unscoped buffers: its arrays are split out at entry and put back at exit, the rest rides beside
def region (p : P) (lf : Pipeline.LaunchFacts (nD := nD) (τ := τ) cfgs p) (Win Wout : Dev nD → Valuation τ sig Val)
    (hbody : ∀ c, BodyObligation (pdats p c) defs₀ Variants.none () Set.univ)
    (hq : ∀ c w, (pdats p c).q w = fullShare) (howed : ∀ c t, (pdats p c).owed t = 0)
    (hrec : ∀ c, (pdats p c).recorded 0 = Set.univ)
    (hΦ : ∀ c k, (pdats p c).Φ k = Pipeline.ΦA (cfgs p).spec c)
    (hA : ∀ c w, (pdats p c).A w = Win c (Proc.devRef .tc (Pipeline.arrRef (cfgs p).spec w)))
    (hF : ∀ c w, (pdats p c).arrAt w (cfgs p).N = Wout c (Proc.devRef .tc (Pipeline.arrRef (cfgs p).spec w)))
    (hrest : ∀ c (b : Ref sig .tc), b ∉ Finset.univ.image (Pipeline.arrRef (cfgs p).spec) →
      Wout c (Proc.devRef .tc b) = Win c (Proc.devRef .tc b)) :
    Pipeline.RegionSeg (pcs (Val := Val) cfgs) (adm cfgs) pdats () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcs (Val := Val) cfgs) (adm cfgs) pdats lf.win lf.arr_whole c
      ((pdats p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (hrec c ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcs (Val := Val) cfgs) (adm cfgs) (Ix := Unit) (Name := ℕ) (U := UR sig nD τ) (Lvl := ℕ)
      lf.win lf.arr_whole c pdats ((pdats p c).share_full (hq c))
      (fun b => Win c b) (fun b => Wout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

-- every operation of the line touches tensor buffers only, determines its result, and writes one buffer, numbered from lo on
abbrev Good (lo : Nat) (l : List (HloOp τ sig Val)) : Prop :=
  ∀ op ∈ l, op.bufs ⊆ StableHlo.tcRefs τ sig ∧ op.fresh = ∅ ∧ ∃ y : Ref sig .tc, op.writes = {Proc.devRef .tc y} ∧ lo ≤ y.idx

theorem Good.nil {lo : Nat} : Good (τ := τ) (sig := sig) (Val := Val) lo [] := fun _ h => nomatch h

theorem Good.cons {lo : Nat} {op : HloOp τ sig Val} {l : List (HloOp τ sig Val)} {y : Ref sig .tc}
    (hb : op.bufs ⊆ StableHlo.tcRefs τ sig) (hf : op.fresh = ∅) (hw : op.writes = {Proc.devRef .tc y}) (hy : lo ≤ y.idx)
    (t : Good lo l) : Good lo (op :: l) :=
  List.forall_mem_cons.2 ⟨⟨hb, hf, y, hw, hy⟩, t⟩

theorem Good.fresh {lo : Nat} {l : List (HloOp τ sig Val)} (h : Good lo l) : l.Forall fun op => op.fresh = ∅ :=
  List.forall_iff_forall_mem.mpr fun op hm => (h op hm).2.1

-- buffers are numbered in program order, so the earlier line's bound serves both
theorem Good.app {a b : Nat} {l₁ l₂ : List (HloOp τ sig Val)} (h₁ : Good a l₁) (h₂ : Good b l₂) (hab : a ≤ b := by decide) :
    Good a (l₁ ++ l₂) :=
  List.forall_mem_append.2 ⟨h₁, fun op h => let ⟨hb, hf, y, hw, hy⟩ := h₂ op h; ⟨hb, hf, y, hw, hab.trans hy⟩⟩

-- a buffer numbered below everything the line writes keeps its contents
theorem Good.keep {lo : Nat} {l : List (HloOp τ sig Val)} (h : Good lo l) (V : Valuation τ sig Val)
    (r : Ref sig .tc) (hr : r.idx.val < lo) : StableHlo.after l V (Proc.devRef .tc r) = V (Proc.devRef .tc r) :=
  StableHlo.after_of_forall_not_mem l V fun op hop hb => by
    obtain ⟨-, -, y, hw, hy⟩ := h op hop
    rw [hw, Finset.mem_singleton] at hb
    exact absurd (Proc.devRef_injective _ hb ▸ hr) (Nat.not_lt.2 hy)

theorem Good.keep_lt {lo k : Nat} {l : List (HloOp τ sig Val)} (h : Good lo l) (V : Valuation τ sig Val)
    (r : Ref sig .tc) (hr : r.idx.val < k) (hk : k ≤ lo := by decide) :
    StableHlo.after l V (Proc.devRef .tc r) = V (Proc.devRef .tc r) :=
  h.keep V r (Nat.lt_of_lt_of_le hr hk)

-- a line writing from lo on passes on what is known of an earlier buffer
theorem Good.step {lo k : Nat} {l : List (HloOp τ sig Val)} (g : Good lo l) {V W : Valuation τ sig Val} {r : Ref sig .tc}
    (hr : r.idx.val < k) (ih : V (Proc.devRef .tc r) = W (Proc.devRef .tc r)) (hk : k ≤ lo := by decide) :
    StableHlo.after l V (Proc.devRef .tc r) = W (Proc.devRef .tc r) :=
  (g.keep_lt V r hr hk).trans ih

-- a buffer numbered below a bound differs from every one at or above it
theorem ne_of_lt {b x : Ref sig .tc} {k : Nat} (h : b.idx.val < k) (hx : k ≤ x.idx.val := by decide) : b ≠ x :=
  fun e => absurd (e ▸ h) (Nat.not_lt.2 hx)

end Cert.Seg

end
-- ==== Proof.KRun.lean ====
import proofs.«123287_j41248865910880_1_alg».proof.Proof.KReg0
import proofs.«123287_j41248865910880_1_alg».proof.Proof.KReg1
import proofs.«123287_j41248865910880_1_alg».proof.Proof.KReg2
import proofs.«123287_j41248865910880_1_alg».proof.Proof.KReg3
import proofs.«123287_j41248865910880_1_alg».proof.Proof.KReg4
import proofs.«123287_j41248865910880_1_alg».proof.Proof.KReg5
import proofs.«123287_j41248865910880_1_alg».proof.Proof.KReg6
import proofs.«123287_j41248865910880_1_alg».proof.Proof.LibSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Seg (L lv R)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

abbrev V2 : (c : Dev nD) → (b : Ref sig .tc) → Buf (Elt F) ((c : Thread nD τ).loc b) := fun c b => W2 m ρ c b

theorem keep_reg0 (c : Dev nD) (b : Ref sig .tc) (hb : b ≠ main_v56) : W2 m ρ c (Proc.devRef .tc b) = W1 m ρ c (Proc.devRef .tc b) :=
  Seg.withArrays_keep spec0 launch0.win.arr_inj c _ _ b fun
    | ⟨0, _⟩, _ => ((dat0 (V1 m ρ) c).arrAt_in 0 rfl _).trans (A_eq0 (V1 m ρ) c 0)
    | ⟨1, _⟩, _ => ((dat0 (V1 m ρ) c).arrAt_in 1 rfl _).trans (A_eq0 (V1 m ρ) c 1)
    | ⟨2, _⟩, e => absurd e.symm hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

abbrev V4 : (c : Dev nD) → (b : Ref sig .tc) → Buf (Elt F) ((c : Thread nD τ).loc b) := fun c b => W4 m ρ c b

theorem keep_reg1 (c : Dev nD) (b : Ref sig .tc) (hb : b ≠ main_v71) : W4 m ρ c (Proc.devRef .tc b) = W3 m ρ c (Proc.devRef .tc b) :=
  Seg.withArrays_keep spec1 launch1.win.arr_inj c _ _ b fun
    | ⟨0, _⟩, _ => ((dat1 (V3 m ρ) c).arrAt_in 0 rfl _).trans (A_eq1 (V3 m ρ) c 0)
    | ⟨1, _⟩, _ => ((dat1 (V3 m ρ) c).arrAt_in 1 rfl _).trans (A_eq1 (V3 m ρ) c 1)
    | ⟨2, _⟩, e => absurd e.symm hb

def W5 (c : Dev nD) : Valuation τ sig (Elt F) :=
  Pipeline.withArrays spec2 c (W4 m ρ c) fun w => (dat2 (V4 m ρ) c).arrAt w cfg2.N

theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w

abbrev V5 : (c : Dev nD) → (b : Ref sig .tc) → Buf (Elt F) ((c : Thread nD τ).loc b) := fun c b => W5 m ρ c b

theorem keep_reg2 (c : Dev nD) (b : Ref sig .tc) (hb : b ≠ main_v72) : W5 m ρ c (Proc.devRef .tc b) = W4 m ρ c (Proc.devRef .tc b) :=
  Seg.withArrays_keep spec2 launch2.win.arr_inj c _ _ b fun
    | ⟨0, _⟩, _ => ((dat2 (V4 m ρ) c).arrAt_in 0 rfl _).trans (A_eq2 (V4 m ρ) c 0)
    | ⟨1, _⟩, _ => ((dat2 (V4 m ρ) c).arrAt_in 1 rfl _).trans (A_eq2 (V4 m ρ) c 1)
    | ⟨2, _⟩, e => absurd e.symm hb

abbrev W6 : Dev nD → Valuation τ sig (Elt F) := fun c => StableHlo.after hostOps3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N

theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w

abbrev V7 : (c : Dev nD) → (b : Ref sig .tc) → Buf (Elt F) ((c : Thread nD τ).loc b) := fun c b => W7 m ρ c b

theorem keep_reg3 (c : Dev nD) (b : Ref sig .tc) (hb : b ≠ main_v87) : W7 m ρ c (Proc.devRef .tc b) = W6 m ρ c (Proc.devRef .tc b) :=
  Seg.withArrays_keep spec3 launch3.win.arr_inj c _ _ b fun
    | ⟨0, _⟩, _ => ((dat3 (V6 m ρ) c).arrAt_in 0 rfl _).trans (A_eq3 (V6 m ρ) c 0)
    | ⟨1, _⟩, _ => ((dat3 (V6 m ρ) c).arrAt_in 1 rfl _).trans (A_eq3 (V6 m ρ) c 1)
    | ⟨2, _⟩, e => absurd e.symm hb

def W8 (c : Dev nD) : Valuation τ sig (Elt F) :=
  Pipeline.withArrays spec4 c (W7 m ρ c) fun w => (dat4 (V7 m ρ) c).arrAt w cfg4.N

theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w

abbrev V8 : (c : Dev nD) → (b : Ref sig .tc) → Buf (Elt F) ((c : Thread nD τ).loc b) := fun c b => W8 m ρ c b

theorem keep_reg4 (c : Dev nD) (b : Ref sig .tc) (hb : b ≠ main_v88) : W8 m ρ c (Proc.devRef .tc b) = W7 m ρ c (Proc.devRef .tc b) :=
  Seg.withArrays_keep spec4 launch4.win.arr_inj c _ _ b fun
    | ⟨0, _⟩, _ => ((dat4 (V7 m ρ) c).arrAt_in 0 rfl _).trans (A_eq4 (V7 m ρ) c 0)
    | ⟨1, _⟩, _ => ((dat4 (V7 m ρ) c).arrAt_in 1 rfl _).trans (A_eq4 (V7 m ρ) c 1)
    | ⟨2, _⟩, e => absurd e.symm hb

abbrev W9 : Dev nD → Valuation τ sig (Elt F) := fun c => StableHlo.after hostOps5 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N

theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w

abbrev V10 : (c : Dev nD) → (b : Ref sig .tc) → Buf (Elt F) ((c : Thread nD τ).loc b) := fun c b => W10 m ρ c b

theorem keep_reg5 (c : Dev nD) (b : Ref sig .tc) (hb : b ≠ main_v103) : W10 m ρ c (Proc.devRef .tc b) = W9 m ρ c (Proc.devRef .tc b) :=
  Seg.withArrays_keep spec5 launch5.win.arr_inj c _ _ b fun
    | ⟨0, _⟩, _ => ((dat5 (V9 m ρ) c).arrAt_in 0 rfl _).trans (A_eq5 (V9 m ρ) c 0)
    | ⟨1, _⟩, _ => ((dat5 (V9 m ρ) c).arrAt_in 1 rfl _).trans (A_eq5 (V9 m ρ) c 1)
    | ⟨2, _⟩, e => absurd e.symm hb

abbrev W11 : Dev nD → Valuation τ sig (Elt F) := fun c => StableHlo.after hostOps6 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec6 c (W11 m ρ c) fun w => (dat6 (V11 m ρ) c).arrAt w cfg6.N

theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w

abbrev V12 : (c : Dev nD) → (b : Ref sig .tc) → Buf (Elt F) ((c : Thread nD τ).loc b) := fun c b => W12 m ρ c b

theorem keep_reg6 (c : Dev nD) (b : Ref sig .tc) (hb : b ≠ main_v119) : W12 m ρ c (Proc.devRef .tc b) = W11 m ρ c (Proc.devRef .tc b) :=
  Seg.withArrays_keep spec6 launch6.win.arr_inj c _ _ b fun
    | ⟨0, _⟩, _ => ((dat6 (V11 m ρ) c).arrAt_in 0 rfl _).trans (A_eq6 (V11 m ρ) c 0)
    | ⟨1, _⟩, _ => ((dat6 (V11 m ρ) c).arrAt_in 1 rfl _).trans (A_eq6 (V11 m ρ) c 1)
    | ⟨2, _⟩, _ => ((dat6 (V11 m ρ) c).arrAt_in 2 rfl _).trans (A_eq6 (V11 m ρ) c 2)
    | ⟨3, _⟩, _ => ((dat6 (V11 m ρ) c).arrAt_in 3 rfl _).trans (A_eq6 (V11 m ρ) c 3)
    | ⟨4, _⟩, _ => ((dat6 (V11 m ρ) c).arrAt_in 4 rfl _).trans (A_eq6 (V11 m ρ) c 4)
    | ⟨5, _⟩, _ => ((dat6 (V11 m ρ) c).arrAt_in 5 rfl _).trans (A_eq6 (V11 m ρ) c 5)
    | ⟨6, _⟩, _ => ((dat6 (V11 m ρ) c).arrAt_in 6 rfl _).trans (A_eq6 (V11 m ρ) c 6)
    | ⟨7, _⟩, e => absurd e.symm hb

-- each host stretch writes buffers numbered from its first on
theorem good_host0 : Seg.Good (Val := Elt F) 21 hostOps0 := by repeat first | exact Seg.Good.nil | refine Seg.Good.cons (by simp) rfl rfl (by decide) ?_
theorem good_host1 : Seg.Good (Val := Elt F) 93 hostOps1 := by repeat first | exact Seg.Good.nil | refine Seg.Good.cons (by simp) rfl rfl (by decide) ?_
theorem good_host3 : Seg.Good (Val := Elt F) 112 hostOps3 := by repeat first | exact Seg.Good.nil | refine Seg.Good.cons (by simp) rfl rfl (by decide) ?_
theorem good_host5 : Seg.Good (Val := Elt F) 131 hostOps5 := by repeat first | exact Seg.Good.nil | refine Seg.Good.cons (by simp) rfl rfl (by decide) ?_
theorem good_host6 : Seg.Good (Val := Elt F) 149 hostOps6 := by repeat first | exact Seg.Good.nil | refine Seg.Good.cons (by simp) rfl rfl (by decide) ?_

-- an argument, numbered below every written buffer, holds its launch contents at the end
theorem W12_of_kept (c : Dev nD) (b : Ref sig .tc) (h : b.idx.val < 21 := by decide) :
    W12 m ρ c (Proc.devRef .tc b) = m ((c : Thread nD τ).loc b) :=
  (keep_reg6 m ρ c b (Seg.ne_of_lt h)).trans <| (good_host6.keep_lt _ b h).trans <| (keep_reg5 m ρ c b (Seg.ne_of_lt h)).trans <|
    (good_host5.keep_lt _ b h).trans <| (keep_reg4 m ρ c b (Seg.ne_of_lt h)).trans <| (keep_reg3 m ρ c b (Seg.ne_of_lt h)).trans <|
    (good_host3.keep_lt _ b h).trans <| (keep_reg2 m ρ c b (Seg.ne_of_lt h)).trans <| (keep_reg1 m ρ c b (Seg.ne_of_lt h)).trans <|
    (good_host1.keep_lt _ b h).trans <| (keep_reg0 m ρ c b (Seg.ne_of_lt h)).trans <| good_host0.keep_lt (W0 m ρ c) b h

abbrev adm : (p : Fin 7) → (pcfgs (F := F) p).Adm := fun p => (cfgs p).toPCfg_adm

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c

abbrev 𝒱₀ : Variants := Variants.none

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

def reg0 : Pipeline.RegionSeg (pcfgs (F := F)) adm (pdats m ρ) () defs₀ 𝒱₀ L lv 0 :=
  Seg.region cfgs (pdats m ρ) defs₀ 0 launch0 (W1 m ρ) (W2 m ρ) (body_obligation0 (V1 m ρ))
    (fun _ _ => rfl) (fun _ _ => rfl) (fun _ => rfl) (fun _ _ => rfl) (fun _ _ => rfl)
    (fun c w => (W2_arr m ρ c w).symm) (fun c => Seg.withArrays_rest spec0 c _ _)

def reg1 : Pipeline.RegionSeg (pcfgs (F := F)) adm (pdats m ρ) () defs₀ 𝒱₀ L lv 1 :=
  Seg.region cfgs (pdats m ρ) defs₀ 1 launch1 (W3 m ρ) (W4 m ρ) (body_obligation1 (V3 m ρ))
    (fun _ _ => rfl) (fun _ _ => rfl) (fun _ => rfl) (fun _ _ => rfl) (fun _ _ => rfl)
    (fun c w => (W4_arr m ρ c w).symm) (fun c => Seg.withArrays_rest spec1 c _ _)

def reg2 : Pipeline.RegionSeg (pcfgs (F := F)) adm (pdats m ρ) () defs₀ 𝒱₀ L lv 2 :=
  Seg.region cfgs (pdats m ρ) defs₀ 2 launch2 (W4 m ρ) (W5 m ρ) (body_obligation2 (V4 m ρ))
    (fun _ _ => rfl) (fun _ _ => rfl) (fun _ => rfl) (fun _ _ => rfl) (fun _ _ => rfl)
    (fun c w => (W5_arr m ρ c w).symm) (fun c => Seg.withArrays_rest spec2 c _ _)

def reg3 : Pipeline.RegionSeg (pcfgs (F := F)) adm (pdats m ρ) () defs₀ 𝒱₀ L lv 3 :=
  Seg.region cfgs (pdats m ρ) defs₀ 3 launch3 (W6 m ρ) (W7 m ρ) (body_obligation3 (V6 m ρ))
    (fun _ _ => rfl) (fun _ _ => rfl) (fun _ => rfl) (fun _ _ => rfl) (fun _ _ => rfl)
    (fun c w => (W7_arr m ρ c w).symm) (fun c => Seg.withArrays_rest spec3 c _ _)

def reg4 : Pipeline.RegionSeg (pcfgs (F := F)) adm (pdats m ρ) () defs₀ 𝒱₀ L lv 4 :=
  Seg.region cfgs (pdats m ρ) defs₀ 4 launch4 (W7 m ρ) (W8 m ρ) (body_obligation4 (V7 m ρ))
    (fun _ _ => rfl) (fun _ _ => rfl) (fun _ => rfl) (fun _ _ => rfl) (fun _ _ => rfl)
    (fun c w => (W8_arr m ρ c w).symm) (fun c => Seg.withArrays_rest spec4 c _ _)

def reg5 : Pipeline.RegionSeg (pcfgs (F := F)) adm (pdats m ρ) () defs₀ 𝒱₀ L lv 5 :=
  Seg.region cfgs (pdats m ρ) defs₀ 5 launch5 (W9 m ρ) (W10 m ρ) (body_obligation5 (V9 m ρ))
    (fun _ _ => rfl) (fun _ _ => rfl) (fun _ => rfl) (fun _ _ => rfl) (fun _ _ => rfl)
    (fun c w => (W10_arr m ρ c w).symm) (fun c => Seg.withArrays_rest spec5 c _ _)

def reg6 : Pipeline.RegionSeg (pcfgs (F := F)) adm (pdats m ρ) () defs₀ 𝒱₀ L lv 6 :=
  Seg.region cfgs (pdats m ρ) defs₀ 6 launch6 (W11 m ρ) (W12 m ρ) (body_obligation6 (V11 m ρ))
    (fun _ _ => rfl) (fun _ _ => rfl) (fun _ => rfl) (fun _ _ => rfl) (fun _ _ => rfl)
    (fun c w => (W12_arr m ρ c w).symm) (fun c => Seg.withArrays_rest spec6 c _ _)

abbrev segs : List (Pipeline.Seg (pcfgs (F := F)) adm (pdats m ρ) () defs₀ 𝒱₀ L lv) :=
  [
    .host (hseg hostOps0 hostOps0_sub good_host0.fresh (W0 m ρ)),
    .region (reg0 m ρ),
    .host (hseg hostOps1 hostOps1_sub good_host1.fresh (W2 m ρ)),
    .region (reg1 m ρ),
    .region (reg2 m ρ),
    .host (hseg hostOps3 hostOps3_sub good_host3.fresh (W5 m ρ)),
    .region (reg3 m ρ),
    .region (reg4 m ρ),
    .host (hseg hostOps5 hostOps5_sub good_host5.fresh (W8 m ρ)),
    .region (reg5 m ρ),
    .host (hseg hostOps6 hostOps6_sub good_host6.fresh (W10 m ρ)),
    .region (reg6 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem run_result : θ_run defs (onTc (τ := τ) (main (F := F))) ⟨m, fun _ => 0, ρ⟩ (fun r => ∀ c : Dev nD,
      r.2.mem ((c.tc : Thread nD τ).loc main_v119) = (dat6 (V11 m ρ) c).arrAt 7 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_v119)).trans (W12_arr m ρ c 7),
    (h c _ (mem_uc main_arg0)).trans (W12_of_kept m ρ c main_arg0),
    (h c _ (mem_uc main_arg1)).trans (W12_of_kept m ρ c main_arg1),
    (h c _ (mem_uc main_arg2)).trans (W12_of_kept m ρ c main_arg2),
    (h c _ (mem_uc main_arg3)).trans (W12_of_kept m ρ c main_arg3),
    (h c _ (mem_uc main_arg4)).trans (W12_of_kept m ρ c main_arg4),
    (h c _ (mem_uc main_arg5)).trans (W12_of_kept m ρ c main_arg5),
    (h c _ (mem_uc main_arg6)).trans (W12_of_kept m ρ c main_arg6),
    (h c _ (mem_uc main_arg7)).trans (W12_of_kept m ρ c main_arg7),
    (h c _ (mem_uc main_arg8)).trans (W12_of_kept m ρ c main_arg8),
    (h c _ (mem_uc main_arg9)).trans (W12_of_kept m ρ c main_arg9),
    (h c _ (mem_uc main_arg10)).trans (W12_of_kept m ρ c main_arg10),
    (h c _ (mem_uc main_arg11)).trans (W12_of_kept m ρ c main_arg11),
    (h c _ (mem_uc main_arg12)).trans (W12_of_kept m ρ c main_arg12),
    (h c _ (mem_uc main_arg13)).trans (W12_of_kept m ρ c main_arg13),
    (h c _ (mem_uc main_arg14)).trans (W12_of_kept m ρ c main_arg14),
    (h c _ (mem_uc main_arg15)).trans (W12_of_kept m ρ c main_arg15),
    (h c _ (mem_uc main_arg16)).trans (W12_of_kept m ρ c main_arg16),
    (h c _ (mem_uc main_arg17)).trans (W12_of_kept m ρ c main_arg17),
    (h c _ (mem_uc main_arg18)).trans (W12_of_kept m ρ c main_arg18),
    (h c _ (mem_uc main_arg19)).trans (W12_of_kept m ρ c main_arg19),
    (h c _ (mem_uc main_arg20)).trans (W12_of_kept m ρ c main_arg20)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (run_result m ρ)

end Cert.Kernel.Hand

end
-- ==== Proof.KIReg0.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rOut0 : Rect S2000x222 := Rect.unit (s := S2000x222) ![0, 0] S2000x222.size inb_S2000x222_S2000x222_0_0

abbrev rW0 : Rect S222x222 := Rect.unit (s := S222x222) ![0, 0] S222x222.size inb_S222x222_S222x222_0_0

def out0_2 (x0 : Vec F S2000x222 .f32) (x1 : Vec F S222x222 .f32) : Vec F S2000x222 .f32 :=
  View.canon [⟨rOut0, k0_pay1 (View.ld x0 rOut0) (View.ld x1 rW0)⟩]

theorem cover0_2 (p0 : Vec F S2000x222 .f32) (y : S2000x222.Idx) :
    ∃ pc ∈ ([⟨rOut0, p0⟩] : List (View.Piece (Elt F) S2000x222 .f32)), y ∈ pc.1.set :=
  View.cover_of_tiled [⟨rOut0, p0⟩] S2000x222.size (by rfl) y

set_option maxHeartbeats 1000000 in
theorem sound_kernel0 (c : Dev nD) (E : Set ℕ) (i : grid0.Coords)
    (arg1 : Memref sig .tc .vmem S2000x222 .f32) (harg1 : arg1.IsWhole)
    (arg2 : Memref sig .tc .vmem S222x222 .f32) (harg2 : arg2.IsWhole)
    (arg3 : Memref sig .tc .vmem S2000x222 .f32) (harg3 : arg3.IsWhole)
    (x0 : Vec F S2000x222 .f32) (x1 : Vec F S222x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rOut1 : Rect S2000x222 := Rect.unit (s := S2000x222) ![0, 0] S2000x222.size inb_S2000x222_S2000x222_0_0

abbrev rB1 : Rect S1x222 := Rect.unit (s := S1x222) ![0, 0] S1x222.size inb_S1x222_S1x222_0_0

def out1_2 (x0 : Vec F S2000x222 .f32) (x1 : Vec F S1x222 .f32) : Vec F S2000x222 .f32 :=
  View.canon [⟨rOut1, k1_pay1 (View.ld x0 rOut1) (View.ld x1 rB1)⟩]

theorem cover1_2 (p0 : Vec F S2000x222 .f32) (y : S2000x222.Idx) :
    ∃ pc ∈ ([⟨rOut1, p0⟩] : List (View.Piece (Elt F) S2000x222 .f32)), y ∈ pc.1.set :=
  View.cover_of_tiled [⟨rOut1, p0⟩] S2000x222.size (by rfl) y

set_option maxHeartbeats 1000000 in
theorem sound_kernel1 (c : Dev nD) (E : Set ℕ) (i : grid1.Coords)
    (arg1 : Memref sig .tc .vmem S2000x222 .f32) (harg1 : arg1.IsWhole)
    (arg2 : Memref sig .tc .vmem S1x222 .f32) (harg2 : arg2.IsWhole)
    (arg3 : Memref sig .tc .vmem S2000x222 .f32) (harg3 : arg3.IsWhole)
    (x0 : Vec F S2000x222 .f32) (x1 : Vec F S1x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_elu_kernel i arg1 harg1 arg2 harg2 arg3 harg3) K := by
  simp only [cc1__bias_elu_kernel_eq_skeleton]; unfold cc1__bias_elu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import proofs.«123287_j41248865910880_1_alg».proof.Proof.KIReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rOut2 : Rect S2000x222 := Rect.unit (s := S2000x222) ![0, 0] S2000x222.size inb_S2000x222_S2000x222_0_0

abbrev rW2 : Rect S222x222 := Rect.unit (s := S222x222) ![0, 0] S222x222.size inb_S222x222_S222x222_0_0

def out2_2 (x0 : Vec F S2000x222 .f32) (x1 : Vec F S222x222 .f32) : Vec F S2000x222 .f32 :=
  View.canon [⟨rOut2, k2_pay1 (View.ld x0 rOut2) (View.ld x1 rW2)⟩]

theorem sound_kernel2 (c : Dev nD) (E : Set ℕ) (i : grid2.Coords)
    (arg1 : Memref sig .tc .vmem S2000x222 .f32) (harg1 : arg1.IsWhole)
    (arg2 : Memref sig .tc .vmem S222x222 .f32) (harg2 : arg2.IsWhole)
    (arg3 : Memref sig .tc .vmem S2000x222 .f32) (harg3 : arg3.IsWhole)
    (x0 : Vec F S2000x222 .f32) (x1 : Vec F S222x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K :=
  sound_kernel0 c E i arg1 harg1 arg2 harg2 arg3 harg3 x0 x1 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import proofs.«123287_j41248865910880_1_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rOut3 : Rect S2000x222 := Rect.unit (s := S2000x222) ![0, 0] S2000x222.size inb_S2000x222_S2000x222_0_0

abbrev rB3 : Rect S1x222 := Rect.unit (s := S1x222) ![0, 0] S1x222.size inb_S1x222_S1x222_0_0

def out3_2 (x0 : Vec F S2000x222 .f32) (x1 : Vec F S1x222 .f32) : Vec F S2000x222 .f32 :=
  View.canon [⟨rOut3, k3_pay1 (View.ld x0 rOut3) (View.ld x1 rB3)⟩]

theorem sound_kernel3 (c : Dev nD) (E : Set ℕ) (i : grid3.Coords)
    (arg1 : Memref sig .tc .vmem S2000x222 .f32) (harg1 : arg1.IsWhole)
    (arg2 : Memref sig .tc .vmem S1x222 .f32) (harg2 : arg2.IsWhole)
    (arg3 : Memref sig .tc .vmem S2000x222 .f32) (harg3 : arg3.IsWhole)
    (x0 : Vec F S2000x222 .f32) (x1 : Vec F S1x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_elu_kernel i arg1 harg1 arg2 harg2 arg3 harg3) K :=
  sound_kernel1 c E i arg1 harg1 arg2 harg2 arg3 harg3 x0 x1 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl

theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import proofs.«123287_j41248865910880_1_alg».proof.Proof.KIReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rOut4 : Rect S2000x222 := Rect.unit (s := S2000x222) ![0, 0] S2000x222.size inb_S2000x222_S2000x222_0_0

abbrev rW4 : Rect S222x222 := Rect.unit (s := S222x222) ![0, 0] S222x222.size inb_S222x222_S222x222_0_0

def out4_2 (x0 : Vec F S2000x222 .f32) (x1 : Vec F S222x222 .f32) : Vec F S2000x222 .f32 :=
  View.canon [⟨rOut4, k4_pay1 (View.ld x0 rOut4) (View.ld x1 rW4)⟩]

theorem sound_kernel4 (c : Dev nD) (E : Set ℕ) (i : grid4.Coords)
    (arg1 : Memref sig .tc .vmem S2000x222 .f32) (harg1 : arg1.IsWhole)
    (arg2 : Memref sig .tc .vmem S222x222 .f32) (harg2 : arg2.IsWhole)
    (arg3 : Memref sig .tc .vmem S2000x222 .f32) (harg3 : arg3.IsWhole)
    (x0 : Vec F S2000x222 .f32) (x1 : Vec F S222x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K :=
  sound_kernel0 c E i arg1 harg1 arg2 harg2 arg3 harg3 x0 x1 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl

theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIReg5.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import proofs.«123287_j41248865910880_1_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rOut5 : Rect S2000x222 := Rect.unit (s := S2000x222) ![0, 0] S2000x222.size inb_S2000x222_S2000x222_0_0

abbrev rB5 : Rect S1x222 := Rect.unit (s := S1x222) ![0, 0] S1x222.size inb_S1x222_S1x222_0_0

def out5_2 (x0 : Vec F S2000x222 .f32) (x1 : Vec F S1x222 .f32) : Vec F S2000x222 .f32 :=
  View.canon [⟨rOut5, k5_pay1 (View.ld x0 rOut5) (View.ld x1 rB5)⟩]

theorem sound_kernel5 (c : Dev nD) (E : Set ℕ) (i : grid5.Coords)
    (arg1 : Memref sig .tc .vmem S2000x222 .f32) (harg1 : arg1.IsWhole)
    (arg2 : Memref sig .tc .vmem S1x222 .f32) (harg2 : arg2.IsWhole)
    (arg3 : Memref sig .tc .vmem S2000x222 .f32) (harg3 : arg3.IsWhole)
    (x0 : Vec F S2000x222 .f32) (x1 : Vec F S1x222 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_elu_kernel i arg1 harg1 arg2 harg2 arg3 harg3) K :=
  sound_kernel1 c E i arg1 harg1 arg2 harg2 arg3 harg3 x0 x1 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl

theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIReg6.lean ====
import proofs.«123287_j41248865910880_1_alg».proof.Proof.Gen.KernelIdeal.Launch
import proofs.«123287_j41248865910880_1_alg».proof.Proof.Gen.KernelIdeal.Skeleton
import proofs.«123287_j41248865910880_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rIn6_0 : Rect S2000x222 := Rect.unit (s := S2000x222) ![0, 0] S2000x222.size inb_S2000x222_S2000x222_0_0

abbrev rIn6_1 : Rect S222x512 := Rect.unit (s := S222x512) ![0, 0] S222x512.size inb_S222x512_S222x512_0_0

abbrev rIn6_2 : Rect S1x512 := Rect.unit (s := S1x512) ![0, 0] S1x512.size inb_S1x512_S1x512_0_0

abbrev rIn6_3 : Rect S512x128 := Rect.unit (s := S512x128) ![0, 0] S512x128.size inb_S512x128_S512x128_0_0

abbrev rIn6_4 : Rect S1x128 := Rect.unit (s := S1x128) ![0, 0] S1x128.size inb_S1x128_S1x128_0_0

abbrev rIn6_5 : Rect S128x1 := Rect.unit (s := S128x1) ![0, 0] S128x1.size inb_S128x1_S128x1_0_0

abbrev rIn6_6 : Rect S1x1 := Rect.unit (s := S1x1) ![0, 0] S1x1.size inb_S1x1_S1x1_0_0

abbrev rOut6 : Rect S2000x1 := Rect.unit (s := S2000x1) ![0, 0] S2000x1.size inb_S2000x1_S2000x1_0_0

def out6_7 (x0 : Vec F S2000x222 .f32) (x1 : Vec F S222x512 .f32) (x2 : Vec F S1x512 .f32) (x3 : Vec F S512x128 .f32) (x4 : Vec F S1x128 .f32) (x5 : Vec F S128x1 .f32) (x6 : Vec F S1x1 .f32) : Vec F S2000x1 .f32 :=
  View.canon [⟨rOut6, k6_pay1 (View.ld x0 rIn6_0) (View.ld x1 rIn6_1) (View.ld x2 rIn6_2) (View.ld x3 rIn6_3) (View.ld x4 rIn6_4) (View.ld x5 rIn6_5) (View.ld x6 rIn6_6)⟩]

theorem cover6_7 (p0 : Vec F S2000x1 .f32) (y : S2000x1.Idx) :
    ∃ pc ∈ ([⟨rOut6, p0⟩] : List (View.Piece (Elt F) S2000x1 .f32)), y ∈ pc.1.set :=
  View.cover_of_tiled [⟨rOut6, p0⟩] S2000x1.size (by rfl) y

set_option maxHeartbeats 2000000 in
theorem sound_kernel6 (c : Dev nD) (E : Set ℕ) (i : grid6.Coords)
    (arg1 : Memref sig .tc .vmem S2000x222 .f32) (harg1 : arg1.IsWhole)
    (arg2 : Memref sig .tc .vmem S222x512 .f32) (harg2 : arg2.IsWhole)
    (arg3 : Memref sig .tc .vmem S1x512 .f32) (harg3 : arg3.IsWhole)
    (arg4 : Memref sig .tc .vmem S512x128 .f32) (harg4 : arg4.IsWhole)
    (arg5 : Memref sig .tc .vmem S1x128 .f32) (harg5 : arg5.IsWhole)
    (arg6 : Memref sig .tc .vmem S128x1 .f32) (harg6 : arg6.IsWhole)
    (arg7 : Memref sig .tc .vmem S1x1 .f32) (harg7 : arg7.IsWhole)
    (arg8 : Memref sig .tc .vmem S2000x1 .f32) (harg8 : arg8.IsWhole)
    (x0 : Vec F S2000x222 .f32) (x1 : Vec F S222x512 .f32) (x2 : Vec F S1x512 .f32) (x3 : Vec F S512x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8) K := by
  simp only [cc6__mlp_kernel_eq_skeleton]; unfold cc6__mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) : (dat6 V c).after 3 t = iblk6 V c 3 t := by dsimp only [dat6]

theorem after6_4 (c : Dev nD) (t : Fin cfg6.N) : (dat6 V c).after 4 t = iblk6 V c 4 t := by dsimp only [dat6]

theorem after6_5 (c : Dev nD) (t : Fin cfg6.N) : (dat6 V c).after 5 t = iblk6 V c 5 t := by dsimp only [dat6]

theorem after6_6 (c : Dev nD) (t : Fin cfg6.N) : (dat6 V c).after 6 t = iblk6 V c 6 t := by dsimp only [dat6]

theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl

theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl

theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl

theorem before6_6 (c : Dev nD) (t : Fin cfg6.N) (d) : (dat6 V c).before 6 t d = iblk6 V c 6 t :=
  ((dat6 V c).before_in_eq_fetched 6 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIRun.lean ====
import proofs.«123287_j41248865910880_1_alg».proof.Proof.KIReg0
import proofs.«123287_j41248865910880_1_alg».proof.Proof.KIReg1
import proofs.«123287_j41248865910880_1_alg».proof.Proof.KIReg2
import proofs.«123287_j41248865910880_1_alg».proof.Proof.KIReg3
import proofs.«123287_j41248865910880_1_alg».proof.Proof.KIReg4
import proofs.«123287_j41248865910880_1_alg».proof.Proof.KIReg5
import proofs.«123287_j41248865910880_1_alg».proof.Proof.KIReg6
import proofs.«123287_j41248865910880_1_alg».proof.Proof.LibSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Seg (L lv R)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

abbrev V2 : (c : Dev nD) → (b : Ref sig .tc) → Buf (Elt F) ((c : Thread nD τ).loc b) := fun c b => W2 m ρ c b

theorem keep_reg0 (c : Dev nD) (b : Ref sig .tc) (hb : b ≠ main_v56) : W2 m ρ c (Proc.devRef .tc b) = W1 m ρ c (Proc.devRef .tc b) :=
  Seg.withArrays_keep spec0 launch0.win.arr_inj c _ _ b fun
    | ⟨0, _⟩, _ => ((dat0 (V1 m ρ) c).arrAt_in 0 rfl _).trans (A_eq0 (V1 m ρ) c 0)
    | ⟨1, _⟩, _ => ((dat0 (V1 m ρ) c).arrAt_in 1 rfl _).trans (A_eq0 (V1 m ρ) c 1)
    | ⟨2, _⟩, e => absurd e.symm hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

abbrev V4 : (c : Dev nD) → (b : Ref sig .tc) → Buf (Elt F) ((c : Thread nD τ).loc b) := fun c b => W4 m ρ c b

theorem keep_reg1 (c : Dev nD) (b : Ref sig .tc) (hb : b ≠ main_v71) : W4 m ρ c (Proc.devRef .tc b) = W3 m ρ c (Proc.devRef .tc b) :=
  Seg.withArrays_keep spec1 launch1.win.arr_inj c _ _ b fun
    | ⟨0, _⟩, _ => ((dat1 (V3 m ρ) c).arrAt_in 0 rfl _).trans (A_eq1 (V3 m ρ) c 0)
    | ⟨1, _⟩, _ => ((dat1 (V3 m ρ) c).arrAt_in 1 rfl _).trans (A_eq1 (V3 m ρ) c 1)
    | ⟨2, _⟩, e => absurd e.symm hb

def W5 (c : Dev nD) : Valuation τ sig (Elt F) :=
  Pipeline.withArrays spec2 c (W4 m ρ c) fun w => (dat2 (V4 m ρ) c).arrAt w cfg2.N

theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w

abbrev V5 : (c : Dev nD) → (b : Ref sig .tc) → Buf (Elt F) ((c : Thread nD τ).loc b) := fun c b => W5 m ρ c b

theorem keep_reg2 (c : Dev nD) (b : Ref sig .tc) (hb : b ≠ main_v72) : W5 m ρ c (Proc.devRef .tc b) = W4 m ρ c (Proc.devRef .tc b) :=
  Seg.withArrays_keep spec2 launch2.win.arr_inj c _ _ b fun
    | ⟨0, _⟩, _ => ((dat2 (V4 m ρ) c).arrAt_in 0 rfl _).trans (A_eq2 (V4 m ρ) c 0)
    | ⟨1, _⟩, _ => ((dat2 (V4 m ρ) c).arrAt_in 1 rfl _).trans (A_eq2 (V4 m ρ) c 1)
    | ⟨2, _⟩, e => absurd e.symm hb

abbrev W6 : Dev nD → Valuation τ sig (Elt F) := fun c => StableHlo.after hostOps3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N

theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w

abbrev V7 : (c : Dev nD) → (b : Ref sig .tc) → Buf (Elt F) ((c : Thread nD τ).loc b) := fun c b => W7 m ρ c b

theorem keep_reg3 (c : Dev nD) (b : Ref sig .tc) (hb : b ≠ main_v87) : W7 m ρ c (Proc.devRef .tc b) = W6 m ρ c (Proc.devRef .tc b) :=
  Seg.withArrays_keep spec3 launch3.win.arr_inj c _ _ b fun
    | ⟨0, _⟩, _ => ((dat3 (V6 m ρ) c).arrAt_in 0 rfl _).trans (A_eq3 (V6 m ρ) c 0)
    | ⟨1, _⟩, _ => ((dat3 (V6 m ρ) c).arrAt_in 1 rfl _).trans (A_eq3 (V6 m ρ) c 1)
    | ⟨2, _⟩, e => absurd e.symm hb

def W8 (c : Dev nD) : Valuation τ sig (Elt F) :=
  Pipeline.withArrays spec4 c (W7 m ρ c) fun w => (dat4 (V7 m ρ) c).arrAt w cfg4.N

theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w

abbrev V8 : (c : Dev nD) → (b : Ref sig .tc) → Buf (Elt F) ((c : Thread nD τ).loc b) := fun c b => W8 m ρ c b

theorem keep_reg4 (c : Dev nD) (b : Ref sig .tc) (hb : b ≠ main_v88) : W8 m ρ c (Proc.devRef .tc b) = W7 m ρ c (Proc.devRef .tc b) :=
  Seg.withArrays_keep spec4 launch4.win.arr_inj c _ _ b fun
    | ⟨0, _⟩, _ => ((dat4 (V7 m ρ) c).arrAt_in 0 rfl _).trans (A_eq4 (V7 m ρ) c 0)
    | ⟨1, _⟩, _ => ((dat4 (V7 m ρ) c).arrAt_in 1 rfl _).trans (A_eq4 (V7 m ρ) c 1)
    | ⟨2, _⟩, e => absurd e.symm hb

abbrev W9 : Dev nD → Valuation τ sig (Elt F) := fun c => StableHlo.after hostOps5 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N

theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w

abbrev V10 : (c : Dev nD) → (b : Ref sig .tc) → Buf (Elt F) ((c : Thread nD τ).loc b) := fun c b => W10 m ρ c b

theorem keep_reg5 (c : Dev nD) (b : Ref sig .tc) (hb : b ≠ main_v103) : W10 m ρ c (Proc.devRef .tc b) = W9 m ρ c (Proc.devRef .tc b) :=
  Seg.withArrays_keep spec5 launch5.win.arr_inj c _ _ b fun
    | ⟨0, _⟩, _ => ((dat5 (V9 m ρ) c).arrAt_in 0 rfl _).trans (A_eq5 (V9 m ρ) c 0)
    | ⟨1, _⟩, _ => ((dat5 (V9 m ρ) c).arrAt_in 1 rfl _).trans (A_eq5 (V9 m ρ) c 1)
    | ⟨2, _⟩, e => absurd e.symm hb

abbrev W11 : Dev nD → Valuation τ sig (Elt F) := fun c => StableHlo.after hostOps6 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec6 c (W11 m ρ c) fun w => (dat6 (V11 m ρ) c).arrAt w cfg6.N

theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w

abbrev V12 : (c : Dev nD) → (b : Ref sig .tc) → Buf (Elt F) ((c : Thread nD τ).loc b) := fun c b => W12 m ρ c b

theorem keep_reg6 (c : Dev nD) (b : Ref sig .tc) (hb : b ≠ main_v119) : W12 m ρ c (Proc.devRef .tc b) = W11 m ρ c (Proc.devRef .tc b) :=
  Seg.withArrays_keep spec6 launch6.win.arr_inj c _ _ b fun
    | ⟨0, _⟩, _ => ((dat6 (V11 m ρ) c).arrAt_in 0 rfl _).trans (A_eq6 (V11 m ρ) c 0)
    | ⟨1, _⟩, _ => ((dat6 (V11 m ρ) c).arrAt_in 1 rfl _).trans (A_eq6 (V11 m ρ) c 1)
    | ⟨2, _⟩, _ => ((dat6 (V11 m ρ) c).arrAt_in 2 rfl _).trans (A_eq6 (V11 m ρ) c 2)
    | ⟨3, _⟩, _ => ((dat6 (V11 m ρ) c).arrAt_in 3 rfl _).trans (A_eq6 (V11 m ρ) c 3)
    | ⟨4, _⟩, _ => ((dat6 (V11 m ρ) c).arrAt_in 4 rfl _).trans (A_eq6 (V11 m ρ) c 4)
    | ⟨5, _⟩, _ => ((dat6 (V11 m ρ) c).arrAt_in 5 rfl _).trans (A_eq6 (V11 m ρ) c 5)
    | ⟨6, _⟩, _ => ((dat6 (V11 m ρ) c).arrAt_in 6 rfl _).trans (A_eq6 (V11 m ρ) c 6)
    | ⟨7, _⟩, e => absurd e.symm hb

-- each host stretch writes buffers numbered from its first on
theorem good_host0 : Seg.Good (Val := Elt F) 21 hostOps0 := by repeat first | exact Seg.Good.nil | refine Seg.Good.cons (by simp) rfl rfl (by decide) ?_
theorem good_host1 : Seg.Good (Val := Elt F) 93 hostOps1 := by repeat first | exact Seg.Good.nil | refine Seg.Good.cons (by simp) rfl rfl (by decide) ?_
theorem good_host3 : Seg.Good (Val := Elt F) 112 hostOps3 := by repeat first | exact Seg.Good.nil | refine Seg.Good.cons (by simp) rfl rfl (by decide) ?_
theorem good_host5 : Seg.Good (Val := Elt F) 131 hostOps5 := by repeat first | exact Seg.Good.nil | refine Seg.Good.cons (by simp) rfl rfl (by decide) ?_
theorem good_host6 : Seg.Good (Val := Elt F) 149 hostOps6 := by repeat first | exact Seg.Good.nil | refine Seg.Good.cons (by simp) rfl rfl (by decide) ?_

-- an argument, numbered below every written buffer, holds its launch contents at the end
theorem W12_of_kept (c : Dev nD) (b : Ref sig .tc) (h : b.idx.val < 21 := by decide) :
    W12 m ρ c (Proc.devRef .tc b) = m ((c : Thread nD τ).loc b) :=
  (keep_reg6 m ρ c b (Seg.ne_of_lt h)).trans <| (good_host6.keep_lt _ b h).trans <| (keep_reg5 m ρ c b (Seg.ne_of_lt h)).trans <|
    (good_host5.keep_lt _ b h).trans <| (keep_reg4 m ρ c b (Seg.ne_of_lt h)).trans <| (keep_reg3 m ρ c b (Seg.ne_of_lt h)).trans <|
    (good_host3.keep_lt _ b h).trans <| (keep_reg2 m ρ c b (Seg.ne_of_lt h)).trans <| (keep_reg1 m ρ c b (Seg.ne_of_lt h)).trans <|
    (good_host1.keep_lt _ b h).trans <| (keep_reg0 m ρ c b (Seg.ne_of_lt h)).trans <| good_host0.keep_lt (W0 m ρ c) b h

abbrev adm : (p : Fin 7) → (pcfgs (F := F) p).Adm := fun p => (cfgs p).toPCfg_adm

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c

abbrev 𝒱₀ : Variants := Variants.none

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

def reg0 : Pipeline.RegionSeg (pcfgs (F := F)) adm (pdats m ρ) () defs₀ 𝒱₀ L lv 0 :=
  Seg.region cfgs (pdats m ρ) defs₀ 0 launch0 (W1 m ρ) (W2 m ρ) (body_obligation0 (V1 m ρ))
    (fun _ _ => rfl) (fun _ _ => rfl) (fun _ => rfl) (fun _ _ => rfl) (fun _ _ => rfl)
    (fun c w => (W2_arr m ρ c w).symm) (fun c => Seg.withArrays_rest spec0 c _ _)

def reg1 : Pipeline.RegionSeg (pcfgs (F := F)) adm (pdats m ρ) () defs₀ 𝒱₀ L lv 1 :=
  Seg.region cfgs (pdats m ρ) defs₀ 1 launch1 (W3 m ρ) (W4 m ρ) (body_obligation1 (V3 m ρ))
    (fun _ _ => rfl) (fun _ _ => rfl) (fun _ => rfl) (fun _ _ => rfl) (fun _ _ => rfl)
    (fun c w => (W4_arr m ρ c w).symm) (fun c => Seg.withArrays_rest spec1 c _ _)

def reg2 : Pipeline.RegionSeg (pcfgs (F := F)) adm (pdats m ρ) () defs₀ 𝒱₀ L lv 2 :=
  Seg.region cfgs (pdats m ρ) defs₀ 2 launch2 (W4 m ρ) (W5 m ρ) (body_obligation2 (V4 m ρ))
    (fun _ _ => rfl) (fun _ _ => rfl) (fun _ => rfl) (fun _ _ => rfl) (fun _ _ => rfl)
    (fun c w => (W5_arr m ρ c w).symm) (fun c => Seg.withArrays_rest spec2 c _ _)

def reg3 : Pipeline.RegionSeg (pcfgs (F := F)) adm (pdats m ρ) () defs₀ 𝒱₀ L lv 3 :=
  Seg.region cfgs (pdats m ρ) defs₀ 3 launch3 (W6 m ρ) (W7 m ρ) (body_obligation3 (V6 m ρ))
    (fun _ _ => rfl) (fun _ _ => rfl) (fun _ => rfl) (fun _ _ => rfl) (fun _ _ => rfl)
    (fun c w => (W7_arr m ρ c w).symm) (fun c => Seg.withArrays_rest spec3 c _ _)

def reg4 : Pipeline.RegionSeg (pcfgs (F := F)) adm (pdats m ρ) () defs₀ 𝒱₀ L lv 4 :=
  Seg.region cfgs (pdats m ρ) defs₀ 4 launch4 (W7 m ρ) (W8 m ρ) (body_obligation4 (V7 m ρ))
    (fun _ _ => rfl) (fun _ _ => rfl) (fun _ => rfl) (fun _ _ => rfl) (fun _ _ => rfl)
    (fun c w => (W8_arr m ρ c w).symm) (fun c => Seg.withArrays_rest spec4 c _ _)

def reg5 : Pipeline.RegionSeg (pcfgs (F := F)) adm (pdats m ρ) () defs₀ 𝒱₀ L lv 5 :=
  Seg.region cfgs (pdats m ρ) defs₀ 5 launch5 (W9 m ρ) (W10 m ρ) (body_obligation5 (V9 m ρ))
    (fun _ _ => rfl) (fun _ _ => rfl) (fun _ => rfl) (fun _ _ => rfl) (fun _ _ => rfl)
    (fun c w => (W10_arr m ρ c w).symm) (fun c => Seg.withArrays_rest spec5 c _ _)

def reg6 : Pipeline.RegionSeg (pcfgs (F := F)) adm (pdats m ρ) () defs₀ 𝒱₀ L lv 6 :=
  Seg.region cfgs (pdats m ρ) defs₀ 6 launch6 (W11 m ρ) (W12 m ρ) (body_obligation6 (V11 m ρ))
    (fun _ _ => rfl) (fun _ _ => rfl) (fun _ => rfl) (fun _ _ => rfl) (fun _ _ => rfl)
    (fun c w => (W12_arr m ρ c w).symm) (fun c => Seg.withArrays_rest spec6 c _ _)

abbrev segs : List (Pipeline.Seg (pcfgs (F := F)) adm (pdats m ρ) () defs₀ 𝒱₀ L lv) :=
  [
    .host (hseg hostOps0 hostOps0_sub good_host0.fresh (W0 m ρ)),
    .region (reg0 m ρ),
    .host (hseg hostOps1 hostOps1_sub good_host1.fresh (W2 m ρ)),
    .region (reg1 m ρ),
    .region (reg2 m ρ),
    .host (hseg hostOps3 hostOps3_sub good_host3.fresh (W5 m ρ)),
    .region (reg3 m ρ),
    .region (reg4 m ρ),
    .host (hseg hostOps5 hostOps5_sub good_host5.fresh (W8 m ρ)),
    .region (reg5 m ρ),
    .host (hseg hostOps6 hostOps6_sub good_host6.fresh (W10 m ρ)),
    .region (reg6 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem run_result : θ_run defs (onTc (τ := τ) (main (F := F))) ⟨m, fun _ => 0, ρ⟩ (fun r => ∀ c : Dev nD,
      r.2.mem ((c.tc : Thread nD τ).loc main_v119) = (dat6 (V11 m ρ) c).arrAt 7 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_v119)).trans (W12_arr m ρ c 7),
    (h c _ (mem_uc main_arg0)).trans (W12_of_kept m ρ c main_arg0),
    (h c _ (mem_uc main_arg1)).trans (W12_of_kept m ρ c main_arg1),
    (h c _ (mem_uc main_arg2)).trans (W12_of_kept m ρ c main_arg2),
    (h c _ (mem_uc main_arg3)).trans (W12_of_kept m ρ c main_arg3),
    (h c _ (mem_uc main_arg4)).trans (W12_of_kept m ρ c main_arg4),
    (h c _ (mem_uc main_arg5)).trans (W12_of_kept m ρ c main_arg5),
    (h c _ (mem_uc main_arg6)).trans (W12_of_kept m ρ c main_arg6),
    (h c _ (mem_uc main_arg7)).trans (W12_of_kept m ρ c main_arg7),
    (h c _ (mem_uc main_arg8)).trans (W12_of_kept m ρ c main_arg8),
    (h c _ (mem_uc main_arg9)).trans (W12_of_kept m ρ c main_arg9),
    (h c _ (mem_uc main_arg10)).trans (W12_of_kept m ρ c main_arg10),
    (h c _ (mem_uc main_arg11)).trans (W12_of_kept m ρ c main_arg11),
    (h c _ (mem_uc main_arg12)).trans (W12_of_kept m ρ c main_arg12),
    (h c _ (mem_uc main_arg13)).trans (W12_of_kept m ρ c main_arg13),
    (h c _ (mem_uc main_arg14)).trans (W12_of_kept m ρ c main_arg14),
    (h c _ (mem_uc main_arg15)).trans (W12_of_kept m ρ c main_arg15),
    (h c _ (mem_uc main_arg16)).trans (W12_of_kept m ρ c main_arg16),
    (h c _ (mem_uc main_arg17)).trans (W12_of_kept m ρ c main_arg17),
    (h c _ (mem_uc main_arg18)).trans (W12_of_kept m ρ c main_arg18),
    (h c _ (mem_uc main_arg19)).trans (W12_of_kept m ρ c main_arg19),
    (h c _ (mem_uc main_arg20)).trans (W12_of_kept m ρ c main_arg20)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (run_result m ρ)

end Cert.KernelIdeal.Hand

end
-- ==== Proof.RefOps.lean ====
import proofs.«123287_j41248865910880_1_alg».proof.Proof.Gen.ReferenceIdeal
import proofs.«123287_j41248865910880_1_alg».proof.Proof.LibSeg
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- node features: three wrapped table lookups joined with the raw columns; sources and targets, a self-loop per node appended
abbrev ops_feat : List (HloOp τ sig (Elt F)) :=
  [ nullary main_c (constantI S_ 32 0#32),
    unary main_c main_v0 (broadcastInDim S50000 ![] bcast_S_S50000),
    binary main_arg0 main_v0 main_v1 (cmpi .slt),
    nullary main_c_0 (constantI S_ 32 118#32),
    unary main_c_0 main_v2 (broadcastInDim S50000 ![] bcast_S_S50000),
    binary main_arg0 main_v2 main_v3 addi,
    ternary main_v1 main_v3 main_arg0 main_v4 select,
    unary main_v4 main_v5 (broadcastInDim S50000x1 ![0] bcast_S50000_S50000x1_0),
    binary main_arg6 main_v5 main_v6 (fun x i => Host.gather gather_S118x200_S50000x1_S50000x200_1_0_n_n_0_1_1200 x i),
    nullary main_c_1 (constantI S_ 32 0#32),
    unary main_c_1 main_v7 (broadcastInDim S50000 ![] bcast_S_S50000),
    binary main_arg1 main_v7 main_v8 (cmpi .slt),
    nullary main_c_2 (constantI S_ 32 16#32),
    unary main_c_2 main_v9 (broadcastInDim S50000 ![] bcast_S_S50000),
    binary main_arg1 main_v9 main_v10 addi,
    ternary main_v8 main_v10 main_arg1 main_v11 select,
    unary main_v11 main_v12 (broadcastInDim S50000x1 ![0] bcast_S50000_S50000x1_0),
    binary main_arg7 main_v12 main_v13 (fun x i => Host.gather gather_S16x10_S50000x1_S50000x10_1_0_n_n_0_1_110 x i),
    nullary main_c_3 (constantI S_ 32 0#32),
    unary main_c_3 main_v14 (broadcastInDim S50000 ![] bcast_S_S50000),
    binary main_arg2 main_v14 main_v15 (cmpi .slt),
    nullary main_c_4 (constantI S_ 32 64#32),
    unary main_c_4 main_v16 (broadcastInDim S50000 ![] bcast_S_S50000),
    binary main_arg2 main_v16 main_v17 addi,
    ternary main_v15 main_v17 main_arg2 main_v18 select,
    unary main_v18 main_v19 (broadcastInDim S50000x1 ![0] bcast_S50000_S50000x1_0),
    binary main_arg8 main_v19 main_v20 (fun x i => Host.gather gather_S64x10_S50000x1_S50000x10_1_0_n_n_0_1_110 x i),
    nary ![main_v6, main_v13, main_v20, main_arg3] main_v21 (fun u => concatenate S50000x222 1 [⟨S50000x200, u 0⟩, ⟨S50000x10, u 1⟩, ⟨S50000x10, u 2⟩, ⟨S50000x2, u 3⟩] concatenates_S50000x200_S50000x10_S50000x10_S50000x2_S50000x222_d1),
    nullary main_v22 (iotaInDim S50000 32 0),
    unary main_arg4 main_v23 ((extractStridedSlice S1x360000 ![0, 0] · slices_S2x360000_S1x360000_0_0)),
    reshape main_v23 main_v24 rfl shapeCasts_S1x360000_S360000,
    binary main_v24 main_v22 main_v25 (fun a b => concatenate S410000 0 [⟨S360000, a⟩, ⟨S50000, b⟩] concatenates_S360000_S50000_S410000_d0),
    unary main_arg4 main_v26 ((extractStridedSlice S1x360000 ![1, 0] · slices_S2x360000_S1x360000_1_0)),
    reshape main_v26 main_v27 rfl shapeCasts_S1x360000_S360000,
    binary main_v27 main_v22 main_v28 (fun a b => concatenate S410000 0 [⟨S360000, a⟩, ⟨S50000, b⟩] concatenates_S360000_S50000_S410000_d0) ]

-- layer 1: features times weights
abbrev ops_dot1 : List (HloOp τ sig (Elt F)) :=
  [ binary main_v21 main_arg9 main_v29 (fun l r => Host.dotGeneral dot_S50000x222_S222x222_S50000x222_1_0_0_1_n_n none l r) ]

-- layer 1: in-degree clamped below by one, its inverse square root, the wrapped sources
abbrev ops_norm1a : List (HloOp τ sig (Elt F)) :=
  [ nullary main_cst (constant S_ .f32 0x00000000#32),
    unary main_cst main_v30 (broadcastInDim S50000 ![] bcast_S_S50000),
    nullary main_c_5 (constantI S_ 32 0#32),
    unary main_c_5 main_v31 (broadcastInDim S410000 ![] bcast_S_S410000),
    binary main_v28 main_v31 main_v32 (cmpi .slt),
    nullary main_c_6 (constantI S_ 32 50000#32),
    unary main_c_6 main_v33 (broadcastInDim S410000 ![] bcast_S_S410000),
    binary main_v28 main_v33 main_v34 addi,
    ternary main_v32 main_v34 main_v28 main_v35 select,
    unary main_v35 main_v36 (broadcastInDim S410000x1 ![0] bcast_S410000_S410000x1_0),
    nullary main_cst_7 (constant S_ .f32 0x3F800000#32),
    unary main_cst_7 main_v37 (broadcastInDim S410000 ![] bcast_S_S410000),
    ternary main_v30 main_v36 main_v37 main_v38 (fun x i u => Host.scatterAdd scatter_S50000_S410000x1_S410000_n_0_0_1 x i u),
    nullary main_cst_8 (constant S_ .f32 0x3F800000#32),
    unary main_cst_8 main_v39 (broadcastInDim S50000 ![] bcast_S_S50000),
    binary main_v38 main_v39 main_v40 maximumf,
    unary main_v40 main_v41 Host.rsqrt,
    nullary main_c_9 (constantI S_ 32 0#32),
    unary main_c_9 main_v42 (broadcastInDim S410000 ![] bcast_S_S410000),
    binary main_v25 main_v42 main_v43 (cmpi .slt),
    nullary main_c_10 (constantI S_ 32 50000#32),
    unary main_c_10 main_v44 (broadcastInDim S410000 ![] bcast_S_S410000),
    binary main_v25 main_v44 main_v45 addi,
    ternary main_v43 main_v45 main_v25 main_v46 select ]

-- layer 1: the edge weight, the normaliser at the source times the normaliser at the target
abbrev ops_norm1b : List (HloOp τ sig (Elt F)) :=
  [ unary main_v46 main_v47 (broadcastInDim S410000x1 ![0] bcast_S410000_S410000x1_0),
    binary main_v41 main_v47 main_v48 (fun x i => Host.gather gather_S50000_S410000x1_S410000_n_0_n_n_0_1_1 x i),
    nullary main_c_11 (constantI S_ 32 0#32),
    unary main_c_11 main_v49 (broadcastInDim S410000 ![] bcast_S_S410000),
    binary main_v28 main_v49 main_v50 (cmpi .slt),
    nullary main_c_12 (constantI S_ 32 50000#32),
    unary main_c_12 main_v51 (broadcastInDim S410000 ![] bcast_S_S410000),
    binary main_v28 main_v51 main_v52 addi,
    ternary main_v50 main_v52 main_v28 main_v53 select,
    unary main_v53 main_v54 (broadcastInDim S410000x1 ![0] bcast_S410000_S410000x1_0),
    binary main_v41 main_v54 main_v55 (fun x i => Host.gather gather_S50000_S410000x1_S410000_n_0_n_n_0_1_1 x i),
    binary main_v48 main_v55 main_v56 mulf ]

-- layer 1: source rows scaled by the edge weight and summed at the targets
abbrev ops_msg1 : List (HloOp τ sig (Elt F)) :=
  [ unary main_v56 main_v57 (broadcastInDim S410000x1 ![0] bcast_S410000_S410000x1_0),
    nullary main_c_13 (constantI S_ 32 0#32),
    unary main_c_13 main_v58 (broadcastInDim S410000 ![] bcast_S_S410000),
    binary main_v25 main_v58 main_v59 (cmpi .slt),
    nullary main_c_14 (constantI S_ 32 50000#32),
    unary main_c_14 main_v60 (broadcastInDim S410000 ![] bcast_S_S410000),
    binary main_v25 main_v60 main_v61 addi,
    ternary main_v59 main_v61 main_v25 main_v62 select,
    unary main_v62 main_v63 (broadcastInDim S410000x1 ![0] bcast_S410000_S410000x1_0),
    binary main_v29 main_v63 main_v64 (fun x i => Host.gather gather_S50000x222_S410000x1_S410000x222_1_0_n_n_0_1_1222 x i),
    unary main_v57 main_v65 (broadcastInDim S410000x222 ![0, 1] bcast_S410000x1_S410000x222_0_1),
    binary main_v64 main_v65 main_v66 mulf,
    nullary main_cst_15 (constant S_ .f32 0x00000000#32),
    unary main_cst_15 main_v67 (broadcastInDim S50000x222 ![] bcast_S_S50000x222),
    unary main_v28 main_v68 (broadcastInDim S410000x1 ![0] bcast_S410000_S410000x1_0),
    ternary main_v67 main_v68 main_v66 main_v69 (fun x i u => Host.scatterAdd scatter_S50000x222_S410000x1_S410000x222_1_0_0_1 x i u) ]

-- layer 1: the bias added to every row
abbrev ops_bias1 : List (HloOp τ sig (Elt F)) :=
  [ unary main_arg10 main_v70 (broadcastInDim S1x222 ![1] bcast_S222_S1x222_1),
    unary main_v70 main_v71 (broadcastInDim S50000x222 ![0, 1] bcast_S1x222_S50000x222_0_1),
    binary main_v69 main_v71 main_v72 addf ]

-- ELU, x where x > 0 and expm1 x elsewhere, of the buffer x with the call's buffers φ
abbrev eluOps (x : TRef sig ⟨S50000x222, .f32⟩) (φ : fn_elu.Bufs) : List (HloOp τ sig (Elt F)) :=
  [ TRef.nullary φ.cst (constant S_ .f32 0x00000000#32),
    TRef.unary φ.cst φ.v0 (broadcastInDim S50000x222 ![] bcast_S_S50000x222),
    TRef.binary x φ.v0 φ.v1 (cmpf .ogt),
    TRef.nullary φ.cst_0 (constant S_ .f32 0x00000000#32),
    TRef.unary φ.cst_0 φ.v2 (broadcastInDim S50000x222 ![] bcast_S_S50000x222),
    TRef.binary x φ.v2 φ.v3 (cmpf .ogt),
    TRef.nullary φ.cst_1 (constant S_ .f32 0x00000000#32),
    TRef.unary φ.cst_1 φ.call0.v0 id,
    TRef.unary φ.call0.v0 φ.call0.v1 (broadcastInDim S50000x222 ![] bcast_S_S50000x222),
    TRef.ternary φ.v3 φ.call0.v1 x φ.call0.v2 select,
    TRef.unary φ.call0.v2 φ.v5 Host.expm1,
    TRef.nullary φ.cst_2 (constant S_ .f32 0x3F800000#32),
    TRef.unary φ.cst_2 φ.v6 (broadcastInDim S50000x222 ![] bcast_S_S50000x222),
    TRef.binary φ.v6 φ.v5 φ.v7 mulf,
    TRef.ternary φ.v1 x φ.v7 φ.call1.v0 select ]

-- layer 1: ELU
abbrev ops_elu1 : List (HloOp τ sig (Elt F)) := eluOps (.of main_v72) main_call0

-- layer 2: activations times weights
abbrev ops_dot2 : List (HloOp τ sig (Elt F)) :=
  [ binary main_v73 main_arg11 main_v74 (fun l r => Host.dotGeneral dot_S50000x222_S222x222_S50000x222_1_0_0_1_n_n none l r) ]

-- layer 2: degrees, inverse square root, the normaliser at the sources
abbrev ops_norm2a : List (HloOp τ sig (Elt F)) :=
  [ nullary main_cst_16 (constant S_ .f32 0x00000000#32),
    unary main_cst_16 main_v75 (broadcastInDim S50000 ![] bcast_S_S50000),
    nullary main_c_17 (constantI S_ 32 0#32),
    unary main_c_17 main_v76 (broadcastInDim S410000 ![] bcast_S_S410000),
    binary main_v28 main_v76 main_v77 (cmpi .slt),
    nullary main_c_18 (constantI S_ 32 50000#32),
    unary main_c_18 main_v78 (broadcastInDim S410000 ![] bcast_S_S410000),
    binary main_v28 main_v78 main_v79 addi,
    ternary main_v77 main_v79 main_v28 main_v80 select,
    unary main_v80 main_v81 (broadcastInDim S410000x1 ![0] bcast_S410000_S410000x1_0),
    nullary main_cst_19 (constant S_ .f32 0x3F800000#32),
    unary main_cst_19 main_v82 (broadcastInDim S410000 ![] bcast_S_S410000),
    ternary main_v75 main_v81 main_v82 main_v83 (fun x i u => Host.scatterAdd scatter_S50000_S410000x1_S410000_n_0_0_1 x i u),
    nullary main_cst_20 (constant S_ .f32 0x3F800000#32),
    unary main_cst_20 main_v84 (broadcastInDim S50000 ![] bcast_S_S50000),
    binary main_v83 main_v84 main_v85 maximumf,
    unary main_v85 main_v86 Host.rsqrt,
    nullary main_c_21 (constantI S_ 32 0#32),
    unary main_c_21 main_v87 (broadcastInDim S410000 ![] bcast_S_S410000),
    binary main_v25 main_v87 main_v88 (cmpi .slt),
    nullary main_c_22 (constantI S_ 32 50000#32),
    unary main_c_22 main_v89 (broadcastInDim S410000 ![] bcast_S_S410000),
    binary main_v25 main_v89 main_v90 addi,
    ternary main_v88 main_v90 main_v25 main_v91 select,
    unary main_v91 main_v92 (broadcastInDim S410000x1 ![0] bcast_S410000_S410000x1_0),
    binary main_v86 main_v92 main_v93 (fun x i => Host.gather gather_S50000_S410000x1_S410000_n_0_n_n_0_1_1 x i),
    nullary main_c_23 (constantI S_ 32 0#32) ]

-- layer 2: the normaliser at the targets and the edge weight
abbrev ops_norm2b : List (HloOp τ sig (Elt F)) :=
  [ unary main_c_23 main_v94 (broadcastInDim S410000 ![] bcast_S_S410000),
    binary main_v28 main_v94 main_v95 (cmpi .slt),
    nullary main_c_24 (constantI S_ 32 50000#32),
    unary main_c_24 main_v96 (broadcastInDim S410000 ![] bcast_S_S410000),
    binary main_v28 main_v96 main_v97 addi,
    ternary main_v95 main_v97 main_v28 main_v98 select,
    unary main_v98 main_v99 (broadcastInDim S410000x1 ![0] bcast_S410000_S410000x1_0),
    binary main_v86 main_v99 main_v100 (fun x i => Host.gather gather_S50000_S410000x1_S410000_n_0_n_n_0_1_1 x i),
    binary main_v93 main_v100 main_v101 mulf ]

-- layer 2: weighted source rows summed at the targets
abbrev ops_msg2 : List (HloOp τ sig (Elt F)) :=
  [ unary main_v101 main_v102 (broadcastInDim S410000x1 ![0] bcast_S410000_S410000x1_0),
    nullary main_c_25 (constantI S_ 32 0#32),
    unary main_c_25 main_v103 (broadcastInDim S410000 ![] bcast_S_S410000),
    binary main_v25 main_v103 main_v104 (cmpi .slt),
    nullary main_c_26 (constantI S_ 32 50000#32),
    unary main_c_26 main_v105 (broadcastInDim S410000 ![] bcast_S_S410000),
    binary main_v25 main_v105 main_v106 addi,
    ternary main_v104 main_v106 main_v25 main_v107 select,
    unary main_v107 main_v108 (broadcastInDim S410000x1 ![0] bcast_S410000_S410000x1_0),
    binary main_v74 main_v108 main_v109 (fun x i => Host.gather gather_S50000x222_S410000x1_S410000x222_1_0_n_n_0_1_1222 x i),
    unary main_v102 main_v110 (broadcastInDim S410000x222 ![0, 1] bcast_S410000x1_S410000x222_0_1),
    binary main_v109 main_v110 main_v111 mulf,
    nullary main_cst_27 (constant S_ .f32 0x00000000#32),
    unary main_cst_27 main_v112 (broadcastInDim S50000x222 ![] bcast_S_S50000x222),
    unary main_v28 main_v113 (broadcastInDim S410000x1 ![0] bcast_S410000_S410000x1_0),
    ternary main_v112 main_v113 main_v111 main_v114 (fun x i u => Host.scatterAdd scatter_S50000x222_S410000x1_S410000x222_1_0_0_1 x i u) ]

-- layer 2: the bias
abbrev ops_bias2 : List (HloOp τ sig (Elt F)) :=
  [ unary main_arg12 main_v115 (broadcastInDim S1x222 ![1] bcast_S222_S1x222_1),
    unary main_v115 main_v116 (broadcastInDim S50000x222 ![0, 1] bcast_S1x222_S50000x222_0_1),
    binary main_v114 main_v116 main_v117 addf ]

-- layer 2: ELU
abbrev ops_elu2 : List (HloOp τ sig (Elt F)) := eluOps (.of main_v117) main_call1

-- layer 3: activations times weights
abbrev ops_dot3 : List (HloOp τ sig (Elt F)) :=
  [ binary main_v118 main_arg13 main_v119 (fun l r => Host.dotGeneral dot_S50000x222_S222x222_S50000x222_1_0_0_1_n_n none l r) ]

-- layer 3: degrees, inverse square root, the normaliser at the sources
abbrev ops_norm3a : List (HloOp τ sig (Elt F)) :=
  [ nullary main_cst_28 (constant S_ .f32 0x00000000#32),
    unary main_cst_28 main_v120 (broadcastInDim S50000 ![] bcast_S_S50000),
    nullary main_c_29 (constantI S_ 32 0#32),
    unary main_c_29 main_v121 (broadcastInDim S410000 ![] bcast_S_S410000),
    binary main_v28 main_v121 main_v122 (cmpi .slt),
    nullary main_c_30 (constantI S_ 32 50000#32),
    unary main_c_30 main_v123 (broadcastInDim S410000 ![] bcast_S_S410000),
    binary main_v28 main_v123 main_v124 addi,
    ternary main_v122 main_v124 main_v28 main_v125 select,
    unary main_v125 main_v126 (broadcastInDim S410000x1 ![0] bcast_S410000_S410000x1_0),
    nullary main_cst_31 (constant S_ .f32 0x3F800000#32),
    unary main_cst_31 main_v127 (broadcastInDim S410000 ![] bcast_S_S410000),
    ternary main_v120 main_v126 main_v127 main_v128 (fun x i u => Host.scatterAdd scatter_S50000_S410000x1_S410000_n_0_0_1 x i u),
    nullary main_cst_32 (constant S_ .f32 0x3F800000#32),
    unary main_cst_32 main_v129 (broadcastInDim S50000 ![] bcast_S_S50000),
    binary main_v128 main_v129 main_v130 maximumf,
    unary main_v130 main_v131 Host.rsqrt,
    nullary main_c_33 (constantI S_ 32 0#32),
    unary main_c_33 main_v132 (broadcastInDim S410000 ![] bcast_S_S410000),
    binary main_v25 main_v132 main_v133 (cmpi .slt),
    nullary main_c_34 (constantI S_ 32 50000#32),
    unary main_c_34 main_v134 (broadcastInDim S410000 ![] bcast_S_S410000),
    binary main_v25 main_v134 main_v135 addi,
    ternary main_v133 main_v135 main_v25 main_v136 select,
    unary main_v136 main_v137 (broadcastInDim S410000x1 ![0] bcast_S410000_S410000x1_0),
    binary main_v131 main_v137 main_v138 (fun x i => Host.gather gather_S50000_S410000x1_S410000_n_0_n_n_0_1_1 x i),
    nullary main_c_35 (constantI S_ 32 0#32),
    unary main_c_35 main_v139 (broadcastInDim S410000 ![] bcast_S_S410000),
    binary main_v28 main_v139 main_v140 (cmpi .slt),
    nullary main_c_36 (constantI S_ 32 50000#32) ]

-- layer 3: the normaliser at the targets and the edge weight
abbrev ops_norm3b : List (HloOp τ sig (Elt F)) :=
  [ unary main_c_36 main_v141 (broadcastInDim S410000 ![] bcast_S_S410000),
    binary main_v28 main_v141 main_v142 addi,
    ternary main_v140 main_v142 main_v28 main_v143 select,
    unary main_v143 main_v144 (broadcastInDim S410000x1 ![0] bcast_S410000_S410000x1_0),
    binary main_v131 main_v144 main_v145 (fun x i => Host.gather gather_S50000_S410000x1_S410000_n_0_n_n_0_1_1 x i),
    binary main_v138 main_v145 main_v146 mulf ]

-- layer 3: weighted source rows summed at the targets
abbrev ops_msg3 : List (HloOp τ sig (Elt F)) :=
  [ unary main_v146 main_v147 (broadcastInDim S410000x1 ![0] bcast_S410000_S410000x1_0),
    nullary main_c_37 (constantI S_ 32 0#32),
    unary main_c_37 main_v148 (broadcastInDim S410000 ![] bcast_S_S410000),
    binary main_v25 main_v148 main_v149 (cmpi .slt),
    nullary main_c_38 (constantI S_ 32 50000#32),
    unary main_c_38 main_v150 (broadcastInDim S410000 ![] bcast_S_S410000),
    binary main_v25 main_v150 main_v151 addi,
    ternary main_v149 main_v151 main_v25 main_v152 select,
    unary main_v152 main_v153 (broadcastInDim S410000x1 ![0] bcast_S410000_S410000x1_0),
    binary main_v119 main_v153 main_v154 (fun x i => Host.gather gather_S50000x222_S410000x1_S410000x222_1_0_n_n_0_1_1222 x i),
    unary main_v147 main_v155 (broadcastInDim S410000x222 ![0, 1] bcast_S410000x1_S410000x222_0_1),
    binary main_v154 main_v155 main_v156 mulf,
    nullary main_cst_39 (constant S_ .f32 0x00000000#32),
    unary main_cst_39 main_v157 (broadcastInDim S50000x222 ![] bcast_S_S50000x222),
    unary main_v28 main_v158 (broadcastInDim S410000x1 ![0] bcast_S410000_S410000x1_0),
    ternary main_v157 main_v158 main_v156 main_v159 (fun x i u => Host.scatterAdd scatter_S50000x222_S410000x1_S410000x222_1_0_0_1 x i u) ]

-- layer 3: the bias
abbrev ops_bias3 : List (HloOp τ sig (Elt F)) :=
  [ unary main_arg14 main_v160 (broadcastInDim S1x222 ![1] bcast_S222_S1x222_1),
    unary main_v160 main_v161 (broadcastInDim S50000x222 ![0, 1] bcast_S1x222_S50000x222_0_1),
    binary main_v159 main_v161 main_v162 addf ]

-- layer 3: ELU
abbrev ops_elu3 : List (HloOp τ sig (Elt F)) := eluOps (.of main_v162) main_call2

-- mean over each graph: rows summed by graph id, divided by the node count clamped below by one
abbrev ops_pool : List (HloOp τ sig (Elt F)) :=
  [ nullary main_cst_40 (constant S_ .f32 0x00000000#32),
    unary main_cst_40 main_v164 (broadcastInDim S2000x222 ![] bcast_S_S2000x222),
    unary main_arg5 main_v165 (broadcastInDim S50000x1 ![0] bcast_S50000_S50000x1_0),
    ternary main_v164 main_v165 main_v163 main_v166 (fun x i u => Host.scatterAdd scatter_S2000x222_S50000x1_S50000x222_1_0_0_1 x i u),
    nullary main_cst_41 (constant S_ .f32 0x3F800000#32),
    unary main_cst_41 main_v167 (broadcastInDim S50000 ![] bcast_S_S50000),
    nullary main_cst_42 (constant S_ .f32 0x00000000#32),
    unary main_cst_42 main_v168 (broadcastInDim S2000 ![] bcast_S_S2000),
    unary main_arg5 main_v169 (broadcastInDim S50000x1 ![0] bcast_S50000_S50000x1_0),
    ternary main_v168 main_v169 main_v167 main_v170 (fun x i u => Host.scatterAdd scatter_S2000_S50000x1_S50000_n_0_0_1 x i u),
    nullary main_cst_43 (constant S_ .f32 0x3F800000#32),
    unary main_cst_43 main_v171 (broadcastInDim S2000 ![] bcast_S_S2000),
    binary main_v170 main_v171 main_v172 maximumf,
    unary main_v172 main_v173 (broadcastInDim S2000x1 ![0] bcast_S2000_S2000x1_0),
    unary main_v173 main_v174 (broadcastInDim S2000x222 ![0, 1] bcast_S2000x1_S2000x222_0_1),
    binary main_v166 main_v174 main_v175 Host.divf ]

-- first dense layer
abbrev ops_fc1 : List (HloOp τ sig (Elt F)) :=
  [ binary main_v175 main_arg15 main_v176 (fun l r => Host.dotGeneral dot_S2000x222_S222x512_S2000x512_1_0_0_1_n_n none l r),
    unary main_arg16 main_v177 (broadcastInDim S1x512 ![1] bcast_S512_S1x512_1),
    unary main_v177 main_v178 (broadcastInDim S2000x512 ![0, 1] bcast_S1x512_S2000x512_0_1),
    binary main_v176 main_v178 main_v179 addf ]

-- its ELU
abbrev ops_elu4 : List (HloOp τ sig (Elt F)) :=
  [ TRef.nullary main_call3.cst (constant S_ .f32 0x00000000#32),
    TRef.unary main_call3.cst main_call3.v0 (broadcastInDim S2000x512 ![] bcast_S_S2000x512),
    TRef.binary (.of main_v179 : TRef sig ⟨S2000x512, .f32⟩) main_call3.v0 main_call3.v1 (cmpf .ogt),
    TRef.nullary main_call3.cst_0 (constant S_ .f32 0x00000000#32),
    TRef.unary main_call3.cst_0 main_call3.v2 (broadcastInDim S2000x512 ![] bcast_S_S2000x512),
    TRef.binary (.of main_v179 : TRef sig ⟨S2000x512, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S2000x512 ![] bcast_S_S2000x512),
    TRef.ternary main_call3.v3 main_call3.call0.v1 (.of main_v179 : TRef sig ⟨S2000x512, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S2000x512 ![] bcast_S_S2000x512),
    TRef.binary main_call3.v6 main_call3.v5 main_call3.v7 mulf,
    TRef.ternary main_call3.v1 (.of main_v179 : TRef sig ⟨S2000x512, .f32⟩) main_call3.v7 main_call3.call1.v0 select ]

-- second dense layer
abbrev ops_fc2 : List (HloOp τ sig (Elt F)) :=
  [ binary main_v180 main_arg17 main_v181 (fun l r => Host.dotGeneral dot_S2000x512_S512x128_S2000x128_1_0_0_1_n_n none l r),
    unary main_arg18 main_v182 (broadcastInDim S1x128 ![1] bcast_S128_S1x128_1),
    unary main_v182 main_v183 (broadcastInDim S2000x128 ![0, 1] bcast_S1x128_S2000x128_0_1),
    binary main_v181 main_v183 main_v184 addf ]

-- its ELU
abbrev ops_elu5 : List (HloOp τ sig (Elt F)) :=
  [ TRef.nullary main_call4.cst (constant S_ .f32 0x00000000#32),
    TRef.unary main_call4.cst main_call4.v0 (broadcastInDim S2000x128 ![] bcast_S_S2000x128),
    TRef.binary (.of main_v184 : TRef sig ⟨S2000x128, .f32⟩) main_call4.v0 main_call4.v1 (cmpf .ogt),
    TRef.nullary main_call4.cst_0 (constant S_ .f32 0x00000000#32),
    TRef.unary main_call4.cst_0 main_call4.v2 (broadcastInDim S2000x128 ![] bcast_S_S2000x128),
    TRef.binary (.of main_v184 : TRef sig ⟨S2000x128, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S2000x128 ![] bcast_S_S2000x128),
    TRef.ternary main_call4.v3 main_call4.call0.v1 (.of main_v184 : TRef sig ⟨S2000x128, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S2000x128 ![] bcast_S_S2000x128),
    TRef.binary main_call4.v6 main_call4.v5 main_call4.v7 mulf,
    TRef.ternary main_call4.v1 (.of main_v184 : TRef sig ⟨S2000x128, .f32⟩) main_call4.v7 main_call4.call1.v0 select ]

-- output layer
abbrev ops_fc3 : List (HloOp τ sig (Elt F)) :=
  [ binary main_v185 main_arg19 main_v186 (fun l r => Host.dotGeneral dot_S2000x128_S128x1_S2000x1_1_0_0_1_n_n none l r),
    unary main_arg20 main_v187 (broadcastInDim S1x1 ![1] bcast_S1_S1x1_1),
    unary main_v187 main_v188 (broadcastInDim S2000x1 ![0, 1] bcast_S1x1_S2000x1_0_1),
    binary main_v186 main_v188 main_v189 addf ]

-- each stage writes buffers numbered from its first on
theorem good_feat : Seg.Good (Val := Elt F) 21 ops_feat := by repeat first | exact Seg.Good.nil | refine Seg.Good.cons (by simp) rfl rfl (by decide) ?_
theorem good_dot1 : Seg.Good (Val := Elt F) 56 ops_dot1 := by repeat first | exact Seg.Good.nil | refine Seg.Good.cons (by simp) rfl rfl (by decide) ?_
theorem good_norm1a : Seg.Good (Val := Elt F) 57 ops_norm1a := by repeat first | exact Seg.Good.nil | refine Seg.Good.cons (by simp) rfl rfl (by decide) ?_
theorem good_norm1b : Seg.Good (Val := Elt F) 81 ops_norm1b := by repeat first | exact Seg.Good.nil | refine Seg.Good.cons (by simp) rfl rfl (by decide) ?_
theorem good_msg1 : Seg.Good (Val := Elt F) 93 ops_msg1 := by repeat first | exact Seg.Good.nil | refine Seg.Good.cons (by simp) rfl rfl (by decide) ?_
theorem good_bias1 : Seg.Good (Val := Elt F) 109 ops_bias1 := by repeat first | exact Seg.Good.nil | refine Seg.Good.cons (by simp) rfl rfl (by decide) ?_
theorem good_elu1 : Seg.Good (Val := Elt F) 112 ops_elu1 := by repeat first | exact Seg.Good.nil | refine Seg.Good.cons (by simp) rfl rfl (by decide) ?_
theorem good_dot2 : Seg.Good (Val := Elt F) 127 ops_dot2 := by repeat first | exact Seg.Good.nil | refine Seg.Good.cons (by simp) rfl rfl (by decide) ?_
theorem good_norm2a : Seg.Good (Val := Elt F) 128 ops_norm2a := by repeat first | exact Seg.Good.nil | refine Seg.Good.cons (by simp) rfl rfl (by decide) ?_
theorem good_norm2b : Seg.Good (Val := Elt F) 155 ops_norm2b := by repeat first | exact Seg.Good.nil | refine Seg.Good.cons (by simp) rfl rfl (by decide) ?_
theorem good_msg2 : Seg.Good (Val := Elt F) 164 ops_msg2 := by repeat first | exact Seg.Good.nil | refine Seg.Good.cons (by simp) rfl rfl (by decide) ?_
theorem good_bias2 : Seg.Good (Val := Elt F) 180 ops_bias2 := by repeat first | exact Seg.Good.nil | refine Seg.Good.cons (by simp) rfl rfl (by decide) ?_
theorem good_elu2 : Seg.Good (Val := Elt F) 183 ops_elu2 := by repeat first | exact Seg.Good.nil | refine Seg.Good.cons (by simp) rfl rfl (by decide) ?_
theorem good_dot3 : Seg.Good (Val := Elt F) 198 ops_dot3 := by repeat first | exact Seg.Good.nil | refine Seg.Good.cons (by simp) rfl rfl (by decide) ?_
theorem good_norm3a : Seg.Good (Val := Elt F) 199 ops_norm3a := by repeat first | exact Seg.Good.nil | refine Seg.Good.cons (by simp) rfl rfl (by decide) ?_
theorem good_norm3b : Seg.Good (Val := Elt F) 229 ops_norm3b := by repeat first | exact Seg.Good.nil | refine Seg.Good.cons (by simp) rfl rfl (by decide) ?_
theorem good_msg3 : Seg.Good (Val := Elt F) 235 ops_msg3 := by repeat first | exact Seg.Good.nil | refine Seg.Good.cons (by simp) rfl rfl (by decide) ?_
theorem good_bias3 : Seg.Good (Val := Elt F) 251 ops_bias3 := by repeat first | exact Seg.Good.nil | refine Seg.Good.cons (by simp) rfl rfl (by decide) ?_
theorem good_elu3 : Seg.Good (Val := Elt F) 254 ops_elu3 := by repeat first | exact Seg.Good.nil | refine Seg.Good.cons (by simp) rfl rfl (by decide) ?_
theorem good_pool : Seg.Good (Val := Elt F) 269 ops_pool := by repeat first | exact Seg.Good.nil | refine Seg.Good.cons (by simp) rfl rfl (by decide) ?_
theorem good_fc1 : Seg.Good (Val := Elt F) 285 ops_fc1 := by repeat first | exact Seg.Good.nil | refine Seg.Good.cons (by simp) rfl rfl (by decide) ?_
theorem good_elu4 : Seg.Good (Val := Elt F) 289 ops_elu4 := by repeat first | exact Seg.Good.nil | refine Seg.Good.cons (by simp) rfl rfl (by decide) ?_
theorem good_fc2 : Seg.Good (Val := Elt F) 304 ops_fc2 := by repeat first | exact Seg.Good.nil | refine Seg.Good.cons (by simp) rfl rfl (by decide) ?_
theorem good_elu5 : Seg.Good (Val := Elt F) 308 ops_elu5 := by repeat first | exact Seg.Good.nil | refine Seg.Good.cons (by simp) rfl rfl (by decide) ?_
theorem good_fc3 : Seg.Good (Val := Elt F) 323 ops_fc3 := by repeat first | exact Seg.Good.nil | refine Seg.Good.cons (by simp) rfl rfl (by decide) ?_

abbrev ops_norm1 : List (HloOp τ sig (Elt F)) := ops_norm1a ++ ops_norm1b
abbrev ops_agg1 : List (HloOp τ sig (Elt F)) := ops_norm1 ++ (ops_msg1 ++ ops_bias1)
theorem good_norm1 : Seg.Good (Val := Elt F) 57 ops_norm1 := good_norm1a.app good_norm1b
theorem good_agg1 : Seg.Good (Val := Elt F) 57 ops_agg1 := good_norm1.app (good_msg1.app good_bias1)
abbrev ops_norm2 : List (HloOp τ sig (Elt F)) := ops_norm2a ++ ops_norm2b
abbrev ops_agg2 : List (HloOp τ sig (Elt F)) := ops_norm2 ++ (ops_msg2 ++ ops_bias2)
theorem good_norm2 : Seg.Good (Val := Elt F) 128 ops_norm2 := good_norm2a.app good_norm2b
theorem good_agg2 : Seg.Good (Val := Elt F) 128 ops_agg2 := good_norm2.app (good_msg2.app good_bias2)
abbrev ops_norm3 : List (HloOp τ sig (Elt F)) := ops_norm3a ++ ops_norm3b
abbrev ops_agg3 : List (HloOp τ sig (Elt F)) := ops_norm3 ++ (ops_msg3 ++ ops_bias3)
theorem good_norm3 : Seg.Good (Val := Elt F) 199 ops_norm3 := good_norm3a.app good_norm3b
theorem good_agg3 : Seg.Good (Val := Elt F) 199 ops_agg3 := good_norm3.app (good_msg3.app good_bias3)

abbrev ops : List (HloOp τ sig (Elt F)) :=
  ops_feat ++ (ops_dot1 ++ (ops_agg1 ++ (ops_elu1 ++ (ops_dot2 ++ (ops_agg2 ++ (ops_elu2 ++ (ops_dot3 ++ (ops_agg3 ++ (ops_elu3 ++ (ops_pool ++ (ops_fc1 ++ (ops_elu4 ++ (ops_fc2 ++ (ops_elu5 ++ (ops_fc3)))))))))))))))

theorem good_ops : Seg.Good (Val := Elt F) 21 ops :=
  good_feat.app (good_dot1.app (good_agg1.app (good_elu1.app (good_dot2.app (good_agg2.app (good_elu2.app (good_dot3.app (good_agg3.app (good_elu3.app (good_pool.app (good_fc1.app (good_elu4.app (good_fc2.app (good_elu5.app good_fc3))))))))))))))

end Cert.ReferenceIdeal.Hand

end
-- ==== Proof.RefRun.lean ====
import proofs.«123287_j41248865910880_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- each part of the program is the line of its stages, the called functions' bodies substituted at their calls
set_option maxRecDepth 8192 in
set_option maxHeartbeats 4000000 in
theorem main_part0_eq (c : Dev nD) : main_part0 (F := F) c = seq (ops_feat ++ (ops_dot1 ++ (ops_norm1a))) := rfl

set_option maxRecDepth 8192 in
set_option maxHeartbeats 4000000 in
theorem main_part1_eq (c : Dev nD) : main_part1 (F := F) c = seq (ops_norm1b ++ (ops_msg1 ++ (ops_bias1 ++ (ops_elu1 ++ (ops_dot2 ++ (ops_norm2a)))))) := by
  simp only [main_part1, fn_elu.body, fn_where.body, fn_where_0.body, bind_assoc, pure_bind]
  rfl

set_option maxRecDepth 8192 in
set_option maxHeartbeats 4000000 in
theorem main_part2_eq (c : Dev nD) : main_part2 (F := F) c = seq (ops_norm2b ++ (ops_msg2 ++ (ops_bias2 ++ (ops_elu2 ++ (ops_dot3 ++ (ops_norm3a)))))) := by
  simp only [main_part2, fn_elu.body, fn_where.body, fn_where_0.body, bind_assoc, pure_bind]
  rfl

set_option maxRecDepth 8192 in
set_option maxHeartbeats 4000000 in
theorem main_part3_eq (c : Dev nD) : main_part3 (F := F) c = seq (ops_norm3b ++ (ops_msg3 ++ (ops_bias3 ++ (ops_elu3 ++ (ops_pool ++ (ops_fc1 ++ (ops_elu4 ++ (ops_fc2 ++ (ops_elu5 ++ (ops_fc3)))))))))) := by
  simp only [main_part3, fn_elu.body, fn_where.body, fn_where_0.body, fn_elu_1.body, fn_where_2.body, fn_where_3.body, fn_elu_4.body, fn_where_5.body, fn_where_6.body, bind_assoc, pure_bind]
  rfl

theorem seq_append4 {Λ : Labels} (a b c d : List (HloOp τ sig (Elt F))) :
    (seq (a ++ (b ++ (c ++ d))) : Prog (TpuEff nD τ sig (Elt F) Λ .tc) PUnit)
      = seq a >>= fun _ => seq b >>= fun _ => seq c >>= fun _ => seq d := by
  rw [seq_append, seq_append, seq_append]

-- the four parts' lines concatenate to the whole
theorem main_eq (c : Dev nD) : main (F := F) c = seq ops :=
  (show main (F := F) c = (main_part0 c >>= fun _ => main_part1 c >>= fun _ => main_part2 c >>= fun _ => main_part3 c) from rfl).trans <| by
    rw [main_part0_eq, main_part1_eq, main_part2_eq, main_part3_eq, ← seq_append4]
    simp only [ops, ops_agg1, ops_agg2, ops_agg3, ops_norm1, ops_norm2, ops_norm3, List.append_assoc]

theorem scopedRefs_eq : (Finset.univ.filter fun b : Ref sig .tc => b.isScoped) = ∅ := by decide
theorem scopedSems_eq : (Finset.univ.filter fun sm : SemLoc sig => sm.isScoped .tc) = ∅ := by decide

-- every weakly fair execution terminates with each tensor buffer at the operations' fold over the launch contents
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq
    (fun _ => List.forall_iff_forall_mem.mpr fun op h => (good_ops op h).1) m ρ (fun _ op h => (good_ops op h).2.1)

end Cert.ReferenceIdeal.Hand

end
-- ==== Proof.RefFrame.lean ====
import proofs.«123287_j41248865910880_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the run leaves every argument as launched: each is numbered below every buffer the line writes
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => by
    refine ⟨?_, ?_, ?_, ?_, ?_, ?_, ?_, ?_, ?_, ?_, ?_, ?_, ?_, ?_, ?_, ?_, ?_, ?_, ?_, ?_, ?_⟩ <;>
      exact (h c _).trans (good_ops.keep _ _ (by decide))) (run_main m ρ)

end Cert.ReferenceIdeal.Hand

end
-- ==== Proof.Spec.lean ====
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx

def elu (y : EReal) : EReal := Scalar.select (Ideal.cmp .ogt y 0) y (Ideal.exp y - 1)

def eluV {s : Shape} (y : FVec Ideal s .f32) : FVec Ideal s .f32 := fun i => elu (y i)

def mmAt {n k p : Nat} (x : FVec Ideal ⟨2, ![n, k]⟩ .f32) (w : FVec Ideal ⟨2, ![k, p]⟩ .f32) (a : Fin n) (b : Fin p) : EReal :=
  ∑ j : Fin k, x (ix2 a j) * w (ix2 j b)

def mm {n k p : Nat} (x : FVec Ideal ⟨2, ![n, k]⟩ .f32) (w : FVec Ideal ⟨2, ![k, p]⟩ .f32) : FVec Ideal ⟨2, ![n, p]⟩ .f32 :=
  fun i => mmAt x w (i 0) (i 1)

theorem mm_apply {n k p : Nat} (x : FVec Ideal ⟨2, ![n, k]⟩ .f32) (w : FVec Ideal ⟨2, ![k, p]⟩ .f32) (a : Fin n) (b : Fin p) :
    mm x w (ix2 a b) = ∑ j : Fin k, x (ix2 a j) * w (ix2 j b) := rfl

def rowOf {p : Nat} (b : FVec Ideal ⟨1, ![p]⟩ .f32) : FVec Ideal ⟨2, ![1, p]⟩ .f32 := fun i => b (ix1 (i 1))

def biasEluRow {n p : Nat} (agg : FVec Ideal ⟨2, ![n, p]⟩ .f32) (brow : FVec Ideal ⟨2, ![1, p]⟩ .f32) : FVec Ideal ⟨2, ![n, p]⟩ .f32 :=
  fun i => elu (agg i + brow (ix2 0 (i 1)))

def biasElu {n p : Nat} (agg : FVec Ideal ⟨2, ![n, p]⟩ .f32) (b : FVec Ideal ⟨1, ![p]⟩ .f32) : FVec Ideal ⟨2, ![n, p]⟩ .f32 :=
  fun i => elu (agg i + b (ix1 (i 1)))

theorem biasEluRow_rowOf {n p : Nat} (agg : FVec Ideal ⟨2, ![n, p]⟩ .f32) (b : FVec Ideal ⟨1, ![p]⟩ .f32) :
    biasEluRow agg (rowOf b) = biasElu agg b := rfl

def denseRow {n k p : Nat} (x : FVec Ideal ⟨2, ![n, k]⟩ .f32) (w : FVec Ideal ⟨2, ![k, p]⟩ .f32) (brow : FVec Ideal ⟨2, ![1, p]⟩ .f32) :
    FVec Ideal ⟨2, ![n, p]⟩ .f32 :=
  fun i => mm x w i + brow (ix2 0 (i 1))

def headRow {n d0 d1 d2 d3 : Nat} (g : FVec Ideal ⟨2, ![n, d0]⟩ .f32)
    (w1 : FVec Ideal ⟨2, ![d0, d1]⟩ .f32) (b1 : FVec Ideal ⟨2, ![1, d1]⟩ .f32)
    (w2 : FVec Ideal ⟨2, ![d1, d2]⟩ .f32) (b2 : FVec Ideal ⟨2, ![1, d2]⟩ .f32)
    (w3 : FVec Ideal ⟨2, ![d2, d3]⟩ .f32) (b3 : FVec Ideal ⟨2, ![1, d3]⟩ .f32) : FVec Ideal ⟨2, ![n, d3]⟩ .f32 :=
  denseRow (eluV (denseRow (eluV (denseRow g w1 b1)) w2 b2)) w3 b3

-- row r of 50000 lies in block r / 2000 of the 25 blocks of 2000 rows, whatever gives the block's two indices
theorem block_of_row (i : (⟨2, ![50000, 222]⟩ : Shape).Idx) : ∃ q < 25, ∀ f : Fin 2 → Nat, f 0 = q → f 1 = 0 →
    ∀ a : Fin 2, f a * (⟨2, ![2000, 222]⟩ : Shape).size a ≤ (i a).val
      ∧ (i a).val < f a * (⟨2, ![2000, 222]⟩ : Shape).size a + (⟨2, ![2000, 222]⟩ : Shape).size a := by
  have hi0 : (i 0).val < 50000 := (i 0).isLt
  have hi1 : (i 1).val < 222 := (i 1).isLt
  refine ⟨(i 0).val / 2000, by omega, fun f h0 h1 a => ?_⟩
  match a with
  | ⟨0, _⟩ => show f 0 * 2000 ≤ (i 0).val ∧ (i 0).val < f 0 * 2000 + 2000; omega
  | ⟨1, _⟩ => show f 1 * 222 ≤ (i 1).val ∧ (i 1).val < f 1 * 222 + 222; omega

end Cert.Spec

end
-- ==== Proof.MatmulLaws.lean ====
import proofs.«123287_j41248865910880_1_alg».proof.KernelIdeal
import proofs.«123287_j41248865910880_1_alg».proof.Proof.Spec
import Idealize.ShloMosaic.PureOps.Ideal.Laws
import Idealize.ShloMosaic.Lib.StackMember

noncomputable section

namespace Cert.KernelIdeal.Hand

open Cert.KernelIdeal
open Idealize.ShloMosaic Idealize.ShloMosaic.ValueIdx
open scoped BigOperators

variable [Facts₀]

-- accumulated into zeros, the plain product is the host's, and that one sums over the contracted coordinate
theorem matmul_plain_mm {n k p : Nat} (x : FVec Ideal ⟨2, ![n, k]⟩ .bf16) (w : FVec Ideal ⟨2, ![k, p]⟩ .bf16) :
    matmul (DotDims.plain n k p) none x w (constant (F := Ideal) ⟨2, ![n, p]⟩ .f32 0x00000000#32) = Cert.Spec.mm x w := by
  rw [matmul_zero_eq_dotGeneral]
  funext i
  rw [eq_ix2 i]
  exact StackMember.dotGeneral_plain_apply none x w (i 0) (i 1)

-- each record of dimension numbers the kernel uses is the plain one
theorem matmul_mm_222_222 (x : FVec Ideal S2000x222 .bf16) (w : FVec Ideal S222x222 .bf16) :
    matmul dot_S2000x222_S222x222_S2000x222_1_0_0_1_n_n none x w (constant (F := Ideal) S2000x222 .f32 0x00000000#32)
      = Cert.Spec.mm (n := 2000) (k := 222) (p := 222) x w := matmul_plain_mm x w
theorem matmul_mm_222_512 (x : FVec Ideal S2000x222 .bf16) (w : FVec Ideal S222x512 .bf16) :
    matmul dot_S2000x222_S222x512_S2000x512_1_0_0_1_n_n none x w (constant (F := Ideal) S2000x512 .f32 0x00000000#32)
      = Cert.Spec.mm (n := 2000) (k := 222) (p := 512) x w := matmul_plain_mm x w
theorem matmul_mm_512_128 (x : FVec Ideal S2000x512 .bf16) (w : FVec Ideal S512x128 .bf16) :
    matmul dot_S2000x512_S512x128_S2000x128_1_0_0_1_n_n none x w (constant (F := Ideal) S2000x128 .f32 0x00000000#32)
      = Cert.Spec.mm (n := 2000) (k := 512) (p := 128) x w := matmul_plain_mm x w
theorem matmul_mm_128_1 (x : FVec Ideal S2000x128 .bf16) (w : FVec Ideal S128x1 .bf16) :
    matmul dot_S2000x128_S128x1_S2000x1_1_0_0_1_n_n none x w (constant (F := Ideal) S2000x1 .f32 0x00000000#32)
      = Cert.Spec.mm (n := 2000) (k := 128) (p := 1) x w := matmul_plain_mm x w

-- an entry of a product reads one row of the left factor: a block of rows of the product is the product of the block of rows
theorem mm_rows {N n k p : Nat} (X : FVec Ideal ⟨2, ![N, k]⟩ .f32) (W : FVec Ideal ⟨2, ![k, p]⟩ .f32)
    (x0 : FVec Ideal ⟨2, ![n, k]⟩ .f32) (x1 : FVec Ideal ⟨2, ![k, p]⟩ .f32) (r : Nat)
    (h0 : ∀ (y : (⟨2, ![n, k]⟩ : Shape).Idx) (i : (⟨2, ![N, k]⟩ : Shape).Idx), (i 0).val = r + (y 0).val → (i 1).val = (y 1).val → x0 y = X i)
    (h1 : ∀ y, x1 y = W y)
    (j : (⟨2, ![n, p]⟩ : Shape).Idx) (i : (⟨2, ![N, p]⟩ : Shape).Idx) (hi0 : (i 0).val = r + (j 0).val) (hi1 : (i 1).val = (j 1).val) :
    Cert.Spec.mm x0 x1 j = Cert.Spec.mm X W i := by
  show ∑ c : Fin k, x0 (ix2 (j 0) c) * x1 (ix2 c (j 1)) = ∑ c : Fin k, X (ix2 (i 0) c) * W (ix2 c (i 1))
  refine Finset.sum_congr rfl fun c _ => ?_
  have e : (i 1 : Fin p) = j 1 := Fin.ext hi1
  rw [h0 (ix2 (j 0) c) (ix2 (i 0) c) hi0 rfl, h1, e]

end Cert.KernelIdeal.Hand

end
-- ==== Proof.KIVal0.lean ====
import proofs.«123287_j41248865910880_1_alg».proof.Proof.KIReg0
import proofs.«123287_j41248865910880_1_alg».proof.Proof.MatmulLaws
import proofs.«123287_j41248865910880_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem zero_origin0 : (![0, 0] : Fin 2 → Nat) = fun _ => 0 := funext fun a => by fin_cases a <;> rfl

theorem pay_mm0 (x : Vec Ideal S2000x222 .f32) (w : Vec Ideal S222x222 .f32) :
    k0_pay1 (F := Ideal) x w = Cert.Spec.mm x w := by
  unfold k0_pay1
  dsimp only
  rw [shapeCast_self]
  exact matmul_mm_222_222 _ _

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- what grid point t writes back is block t of the whole-array product: a row of a product reads one row of the left factor
theorem flushed_mm0 (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal)
          (Cert.Spec.mm (n := 50000) (k := 222) (p := 222) (V c main_v21) (V c main_arg9)) := by
  show (cfg0.win 2).cut (grid0.coords t) ((dat0 V c).after 2 t) = _
  rw [after0_2]
  unfold out0_2
  rw [View.canon_unit_zero zero_origin0]
  simp only [View.ld_unit_zero (S := S2000x222) zero_origin0, View.ld_unit_zero (S := S222x222) zero_origin0]
  rw [pay_mm0]
  obtain ⟨e00, e01, e10, e11, e20, e21⟩ := idx_facts0 t
  funext j
  show Cert.Spec.mm (n := 2000) (k := 222) (p := 222) (iblk0 V c 0 t) (iblk0 V c 1 t) j
    = Cert.Spec.mm (n := 50000) (k := 222) (p := 222) (V c main_v21) (V c main_arg9) (((cfg0.win 2).blk t).view.emb j)
  refine mm_rows (N := 50000) (n := 2000) (k := 222) (p := 222) (V c main_v21) (V c main_arg9) (iblk0 V c 0 t) (iblk0 V c 1 t) (2000 * t.val) ?_ ?_ j _ ?_ ?_
  · intro y i hi0 hi1
    show V c main_v21 (((cfg0.win 0).blk t).view.emb y) = V c main_v21 i
    congr 1; funext a; apply Fin.ext
    match a with
    | ⟨0, _⟩ => show win0_0.index t (0 : Fin 2) * 2000 + 1 * (y 0).val = (i 0).val; omega
    | ⟨1, _⟩ => show win0_0.index t (1 : Fin 2) * 222 + 1 * (y 1).val = (i 1).val; omega
  · intro y
    show V c main_arg9 (((cfg0.win 1).blk t).view.emb y) = V c main_arg9 y
    congr 1; funext a; apply Fin.ext
    match a with
    | ⟨0, _⟩ => show win0_1.index t (0 : Fin 2) * 222 + 1 * (y 0).val = (y 0).val; omega
    | ⟨1, _⟩ => show win0_1.index t (1 : Fin 2) * 222 + 1 * (y 1).val = (y 1).val; omega
  · show win0_2.index t (0 : Fin 2) * 2000 + 1 * (j 0).val = 2000 * t.val + (j 0).val; omega
  · show win0_2.index t (1 : Fin 2) * 222 + 1 * (j 1).val = (j 1).val; omega

theorem mem_blk0 (t : Fin cfg0.N) (i : S50000x222.Idx) :
    i ∈ ((cfg0.win 2).blk t).view.set ↔ ∀ a : Fin 2, win0_2.index t a * S2000x222.size a ≤ (i a).val
      ∧ (i a).val < win0_2.index t a * S2000x222.size a + S2000x222.size a := by
  show i ∈ ((View.whole main_v56).slice (win0_2.rect t)).set ↔ _
  rw [View.set_slice_whole, Rect.mem_set_unit]
  exact Iff.rfl

theorem cover_mm0 (i : S50000x222.Idx) :
    ∃ t : Fin cfg0.N, (cfg0.win 2).flush t = true ∧ i ∈ ((cfg0.win 2).blk t).view.set := by
  obtain ⟨q, hq, H⟩ := Cert.Spec.block_of_row i
  have hN : cfg0.N = 25 := N_0
  obtain ⟨-, -, -, -, e0, e1⟩ := idx_facts0 (⟨q, by omega⟩ : Fin cfg0.N)
  exact ⟨⟨q, by omega⟩, flush0_2 _, (mem_blk0 _ i).2 (H _ e0 e1)⟩

-- the blocks of rows cover the array, so the region leaves the matrix product of the two arrays it finds
theorem arr_mm0 (V : (c : Dev nD) → (b : Ref sig .tc) → Buf (Elt Ideal) ((c : Thread nD τ).loc b)) (c : Dev nD) :
    (dat0 (F := Ideal) V c).arrAt 2 cfg0.N
      = Cert.Spec.mm (n := 50000) (k := 222) (p := 222) (V c main_v21) (V c main_arg9) :=
  (dat0 (F := Ideal) V c).arrAt_eq_of_cover 2 _ (fun t _ => flushed_mm0 V c t) cover_mm0

end Cert.KernelIdeal.Hand

end
-- ==== Proof.EluLaws.lean ====
import proofs.«123287_j41248865910880_1_alg».proof.Proof.Spec
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx

theorem elu_eq (y : EReal) : elu y = Scalar.select (Ideal.cmp .ogt y 0) y (Ideal.exp y - 1) := rfl

theorem elu_kernel_form {s : Shape} (y : FVec Ideal s .f32) :
    select (cmpf .ogt y (broadcast s (Scalar.ofBits (F := Ideal) .f32 0x00000000#32))) y
      (subf (exp y) (broadcast s (Scalar.ofBits (F := Ideal) .f32 0x3F800000#32))) = eluV y := by
  funext i
  show Scalar.select (Ideal.cmp .ogt (y i) (Ideal.ofBits .f32 0x00000000#32)) (y i)
      (Ideal.exp (y i) - Ideal.ofBits .f32 0x3F800000#32) = elu (y i)
  rw [Ideal.ofBits_zero_f32, Ideal.ofBits_one_f32]
  rfl

theorem elu_host_entry (x : EReal) :
    Scalar.select (Ideal.cmp .ogt x 0) x (1 * (Ideal.exp (Scalar.select (Ideal.cmp .ogt x 0) 0 x) - 1)) = elu x := by
  rw [elu_eq]
  rcases BitVec.eq_zero_or_eq_one (Ideal.cmp .ogt x 0) with h | h
  · rw [h]
    show 1 * (Ideal.exp x - 1) = Ideal.exp x - 1
    exact one_mul _
  · rw [h]
    rfl

theorem elu_host_form {s : Shape} (z : FVec Ideal s .f32)
    (bc : (⟨0, ![]⟩ : Shape).BroadcastsInDim s (![] : Fin 0 → Fin s.rank)) :
    select (cmpf .ogt z (broadcastInDim s ![] bc (constant (F := Ideal) ⟨0, ![]⟩ .f32 0x00000000#32))) z
      (mulf (broadcastInDim s ![] bc (constant (F := Ideal) ⟨0, ![]⟩ .f32 0x3F800000#32))
        (Host.expm1 (select (cmpf .ogt z (broadcastInDim s ![] bc (constant (F := Ideal) ⟨0, ![]⟩ .f32 0x00000000#32)))
          (broadcastInDim s ![] bc (id (constant (F := Ideal) ⟨0, ![]⟩ .f32 0x00000000#32))) z))) = eluV z := by
  funext i
  have hz : broadcastInDim s ![] bc (constant (F := Ideal) ⟨0, ![]⟩ .f32 0x00000000#32) i = 0 := by
    rw [broadcastInDim_scalar_apply, constant_apply, Ideal.ofBits_zero_f32]
  have ho : broadcastInDim s ![] bc (constant (F := Ideal) ⟨0, ![]⟩ .f32 0x3F800000#32) i = 1 := by
    rw [broadcastInDim_scalar_apply, constant_apply, Ideal.ofBits_one_f32]
  show Scalar.select (Ideal.cmp .ogt (z i) (broadcastInDim s ![] bc (constant (F := Ideal) ⟨0, ![]⟩ .f32 0x00000000#32) i)) (z i)
      (broadcastInDim s ![] bc (constant (F := Ideal) ⟨0, ![]⟩ .f32 0x3F800000#32) i
        * (Ideal.exp (Scalar.select (Ideal.cmp .ogt (z i) (broadcastInDim s ![] bc (constant (F := Ideal) ⟨0, ![]⟩ .f32 0x00000000#32) i))
            (broadcastInDim s ![] bc (constant (F := Ideal) ⟨0, ![]⟩ .f32 0x00000000#32) i) (z i)) - 1)) = elu (z i)
  rw [hz, ho]
  exact elu_host_entry (z i)

end Cert.Spec

end
-- ==== Proof.KIVal1.lean ====
import proofs.«123287_j41248865910880_1_alg».proof.Proof.KIReg1
import proofs.«123287_j41248865910880_1_alg».proof.Proof.EluLaws
import proofs.«123287_j41248865910880_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem hz_elu1 : (![0, 0] : Fin 2 → Nat) = fun _ => 0 := funext fun a => by fin_cases a <;> rfl

theorem pay_elu1 (x : Vec Ideal S2000x222 .f32) (b : Vec Ideal S1x222 .f32) :
    k1_pay1 (F := Ideal) x b = Cert.Spec.biasEluRow (n := 2000) (p := 222) x b := by
  unfold k1_pay1
  dsimp only
  rw [shapeCast_self, shapeCast_self]
  refine (Cert.Spec.elu_kernel_form _).trans ?_
  funext i
  obtain ⟨r, j, rfl⟩ : ∃ (r : Fin 2000) (j : Fin 222), i = ix2 r j := ⟨i 0, i 1, eq_ix2 i⟩
  show Cert.Spec.elu (x (ix2 r j) + broadcastTo S2000x222 b broadcasts_S1x222_S2000x222 (ix2 r j))
    = Cert.Spec.elu (x (ix2 r j) + b (ix2 0 j))
  rw [broadcastTo_1b_ab_apply]

theorem out_elu1 (x0 : Vec Ideal S2000x222 .f32) (x1 : Vec Ideal S1x222 .f32) :
    out1_2 (F := Ideal) x0 x1 = Cert.Spec.biasEluRow (n := 2000) (p := 222) x0 x1 := by
  unfold out1_2
  rw [View.canon_unit_zero hz_elu1]
  simp only [View.ld_unit_zero (S := S2000x222) hz_elu1, View.ld_unit_zero (S := S1x222) hz_elu1]
  exact pay_elu1 x0 x1

theorem idx_elu1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem entry_elu1 (X : S50000x222.Idx → EReal) (B : S1x222.Idx → EReal)
    (x0 : S2000x222.Idx → EReal) (x1 : S1x222.Idx → EReal) (y : S2000x222.Idx) (k : S50000x222.Idx)
    (h0 : x0 y = X k) (h1 : x1 (ix2 0 (y 1)) = B (ix2 0 (k 1))) :
    Cert.Spec.biasEluRow (n := 2000) (p := 222) x0 x1 y = Cert.Spec.biasEluRow (n := 50000) (p := 222) X B k := by
  show Cert.Spec.elu (x0 y + x1 (ix2 0 (y 1))) = Cert.Spec.elu (X k + B (ix2 0 (k 1)))
  rw [h0, h1]

variable (V : (c : Dev nD) → (b : Ref sig .tc) → Buf (Elt Ideal) ((c : Thread nD τ).loc b))

-- what grid point t writes back is block t of the whole-array bias-and-ELU: an entry reads one entry and one bias
theorem flushed_elu1 (c : Dev nD) (t : Fin cfg1.N) :
    (dat1 (F := Ideal) V c).flushed 2 t = ((cfg1.win 2).blk t).view.read (Elt Ideal)
      (Cert.Spec.biasEluRow (n := 50000) (p := 222) (V c main_v69) (V c main_v70)) := by
  show (cfg1.win 2).cut (grid1.coords t) ((dat1 (F := Ideal) V c).after 2 t) = _
  rw [after1_2]
  refine (congrArg ((cfg1.win 2).cut (grid1.coords t)) (out_elu1 (iblk1 V c 0 t) (iblk1 V c 1 t))).trans ?_
  obtain ⟨e0, e1, e2, e3, e4, e5⟩ := idx_elu1 t
  funext y
  refine entry_elu1 (V c main_v69) (V c main_v70) (iblk1 V c 0 t) (iblk1 V c 1 t)
    ((cfg1.win 2).xinj (grid1.coords t) y) (((cfg1.win 2).blk t).view.emb y) ?_ ?_
  · show V c main_v69 (((cfg1.win 0).blk t).view.emb ((cfg1.win 2).xinj (grid1.coords t) y)) = V c main_v69 (((cfg1.win 2).blk t).view.emb y)
    refine congrArg (V c main_v69) (funext fun a => Fin.ext ?_)
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 222 + 1 * (y 1).val = win1_2.index t (1 : Fin 2) * 222 + 1 * (y 1).val; omega
  · show V c main_v70 (((cfg1.win 1).blk t).view.emb (ix2 (0 : Fin 1) (((cfg1.win 2).xinj (grid1.coords t) y) 1))) = V c main_v70 (ix2 (0 : Fin 1) ((((cfg1.win 2).blk t).view.emb y) 1))
    refine congrArg (V c main_v70) (funext fun a => Fin.ext ?_)
    match a with
    | ⟨0, _⟩ => show win1_1.index t (0 : Fin 2) * 1 + 1 * 0 = 0; omega
    | ⟨1, _⟩ => show win1_1.index t (1 : Fin 2) * 222 + 1 * (y 1).val = win1_2.index t (1 : Fin 2) * 222 + 1 * (y 1).val; omega

theorem mem_blk_elu1 (t : Fin cfg1.N) (i : S50000x222.Idx) :
    i ∈ ((cfg1.win 2).blk t).view.set ↔ ∀ a : Fin 2, win1_2.index t a * S2000x222.size a ≤ (i a).val ∧ (i a).val < win1_2.index t a * S2000x222.size a + S2000x222.size a := by
  show i ∈ ((View.whole main_v71).slice (win1_2.rect t)).set ↔ _
  rw [View.set_slice_whole, Rect.mem_set_unit]
  exact Iff.rfl

theorem cover_elu1 (i : S50000x222.Idx) :
    ∃ t : Fin cfg1.N, (cfg1.win 2).flush t = true ∧ i ∈ ((cfg1.win 2).blk t).view.set := by
  obtain ⟨q, hq, H⟩ := Cert.Spec.block_of_row i
  have hN : cfg1.N = 25 := N_1
  obtain ⟨-, -, -, -, e0, e1⟩ := idx_elu1 (⟨q, by omega⟩ : Fin cfg1.N)
  exact ⟨⟨q, by omega⟩, flush1_2 _, (mem_blk_elu1 _ i).2 (H _ e0 e1)⟩

-- the blocks of rows cover the array, so the region leaves the bias-and-ELU of the array it finds
theorem arr_elu1 (c : Dev nD) :
    (dat1 (F := Ideal) V c).arrAt 2 cfg1.N = Cert.Spec.biasEluRow (n := 50000) (p := 222) (V c main_v69) (V c main_v70) :=
  (dat1 (F := Ideal) V c).arrAt_eq_of_cover 2 (Cert.Spec.biasEluRow (n := 50000) (p := 222) (V c main_v69) (V c main_v70))
    (fun t _ => flushed_elu1 V c t) cover_elu1

end Cert.KernelIdeal.Hand

end
-- ==== Proof.KIVal2.lean ====
import proofs.«123287_j41248865910880_1_alg».proof.Proof.KIReg2
import proofs.«123287_j41248865910880_1_alg».proof.Proof.MatmulLaws
import proofs.«123287_j41248865910880_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem zero_origin2 : (![0, 0] : Fin 2 → Nat) = fun _ => 0 := funext fun a => by fin_cases a <;> rfl

theorem pay_mm2 (x : Vec Ideal S2000x222 .f32) (w : Vec Ideal S222x222 .f32) :
    k2_pay1 (F := Ideal) x w = Cert.Spec.mm x w := by
  unfold k2_pay1
  dsimp only
  rw [shapeCast_self]
  exact matmul_mm_222_222 _ _

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- what grid point t writes back is block t of the whole-array product: a row of a product reads one row of the left factor
theorem flushed_mm2 (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal)
          (Cert.Spec.mm (n := 50000) (k := 222) (p := 222) (V c main_v71) (V c main_arg11)) := by
  show (cfg2.win 2).cut (grid2.coords t) ((dat2 V c).after 2 t) = _
  rw [after2_2]
  unfold out2_2
  rw [View.canon_unit_zero zero_origin2]
  simp only [View.ld_unit_zero (S := S2000x222) zero_origin2, View.ld_unit_zero (S := S222x222) zero_origin2]
  rw [pay_mm2]
  obtain ⟨e00, e01, e10, e11, e20, e21⟩ := idx_facts2 t
  funext j
  show Cert.Spec.mm (n := 2000) (k := 222) (p := 222) (iblk2 V c 0 t) (iblk2 V c 1 t) j
    = Cert.Spec.mm (n := 50000) (k := 222) (p := 222) (V c main_v71) (V c main_arg11) (((cfg2.win 2).blk t).view.emb j)
  refine mm_rows (N := 50000) (n := 2000) (k := 222) (p := 222) (V c main_v71) (V c main_arg11) (iblk2 V c 0 t) (iblk2 V c 1 t) (2000 * t.val) ?_ ?_ j _ ?_ ?_
  · intro y i hi0 hi1
    show V c main_v71 (((cfg2.win 0).blk t).view.emb y) = V c main_v71 i
    congr 1; funext a; apply Fin.ext
    match a with
    | ⟨0, _⟩ => show win2_0.index t (0 : Fin 2) * 2000 + 1 * (y 0).val = (i 0).val; omega
    | ⟨1, _⟩ => show win2_0.index t (1 : Fin 2) * 222 + 1 * (y 1).val = (i 1).val; omega
  · intro y
    show V c main_arg11 (((cfg2.win 1).blk t).view.emb y) = V c main_arg11 y
    congr 1; funext a; apply Fin.ext
    match a with
    | ⟨0, _⟩ => show win2_1.index t (0 : Fin 2) * 222 + 1 * (y 0).val = (y 0).val; omega
    | ⟨1, _⟩ => show win2_1.index t (1 : Fin 2) * 222 + 1 * (y 1).val = (y 1).val; omega
  · show win2_2.index t (0 : Fin 2) * 2000 + 1 * (j 0).val = 2000 * t.val + (j 0).val; omega
  · show win2_2.index t (1 : Fin 2) * 222 + 1 * (j 1).val = (j 1).val; omega

theorem mem_blk2 (t : Fin cfg2.N) (i : S50000x222.Idx) :
    i ∈ ((cfg2.win 2).blk t).view.set ↔ ∀ a : Fin 2, win2_2.index t a * S2000x222.size a ≤ (i a).val
      ∧ (i a).val < win2_2.index t a * S2000x222.size a + S2000x222.size a := by
  show i ∈ ((View.whole main_v72).slice (win2_2.rect t)).set ↔ _
  rw [View.set_slice_whole, Rect.mem_set_unit]
  exact Iff.rfl

theorem cover_mm2 (i : S50000x222.Idx) :
    ∃ t : Fin cfg2.N, (cfg2.win 2).flush t = true ∧ i ∈ ((cfg2.win 2).blk t).view.set := by
  obtain ⟨q, hq, H⟩ := Cert.Spec.block_of_row i
  have hN : cfg2.N = 25 := N_2
  obtain ⟨-, -, -, -, e0, e1⟩ := idx_facts2 (⟨q, by omega⟩ : Fin cfg2.N)
  exact ⟨⟨q, by omega⟩, flush2_2 _, (mem_blk2 _ i).2 (H _ e0 e1)⟩

-- the blocks of rows cover the array, so the region leaves the matrix product of the two arrays it finds
theorem arr_mm2 (V : (c : Dev nD) → (b : Ref sig .tc) → Buf (Elt Ideal) ((c : Thread nD τ).loc b)) (c : Dev nD) :
    (dat2 (F := Ideal) V c).arrAt 2 cfg2.N
      = Cert.Spec.mm (n := 50000) (k := 222) (p := 222) (V c main_v71) (V c main_arg11) :=
  (dat2 (F := Ideal) V c).arrAt_eq_of_cover 2 _ (fun t _ => flushed_mm2 V c t) cover_mm2

end Cert.KernelIdeal.Hand

end
-- ==== Proof.KIVal3.lean ====
import proofs.«123287_j41248865910880_1_alg».proof.Proof.KIReg3
import proofs.«123287_j41248865910880_1_alg».proof.Proof.EluLaws
import proofs.«123287_j41248865910880_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem hz_elu3 : (![0, 0] : Fin 2 → Nat) = fun _ => 0 := funext fun a => by fin_cases a <;> rfl

theorem pay_elu3 (x : Vec Ideal S2000x222 .f32) (b : Vec Ideal S1x222 .f32) :
    k3_pay1 (F := Ideal) x b = Cert.Spec.biasEluRow (n := 2000) (p := 222) x b := by
  unfold k3_pay1
  dsimp only
  rw [shapeCast_self, shapeCast_self]
  refine (Cert.Spec.elu_kernel_form _).trans ?_
  funext i
  obtain ⟨r, j, rfl⟩ : ∃ (r : Fin 2000) (j : Fin 222), i = ix2 r j := ⟨i 0, i 1, eq_ix2 i⟩
  show Cert.Spec.elu (x (ix2 r j) + broadcastTo S2000x222 b broadcasts_S1x222_S2000x222 (ix2 r j))
    = Cert.Spec.elu (x (ix2 r j) + b (ix2 0 j))
  rw [broadcastTo_1b_ab_apply]

theorem out_elu3 (x0 : Vec Ideal S2000x222 .f32) (x1 : Vec Ideal S1x222 .f32) :
    out3_2 (F := Ideal) x0 x1 = Cert.Spec.biasEluRow (n := 2000) (p := 222) x0 x1 := by
  unfold out3_2
  rw [View.canon_unit_zero hz_elu3]
  simp only [View.ld_unit_zero (S := S2000x222) hz_elu3, View.ld_unit_zero (S := S1x222) hz_elu3]
  exact pay_elu3 x0 x1

theorem idx_elu3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem entry_elu3 (X : S50000x222.Idx → EReal) (B : S1x222.Idx → EReal)
    (x0 : S2000x222.Idx → EReal) (x1 : S1x222.Idx → EReal) (y : S2000x222.Idx) (k : S50000x222.Idx)
    (h0 : x0 y = X k) (h1 : x1 (ix2 0 (y 1)) = B (ix2 0 (k 1))) :
    Cert.Spec.biasEluRow (n := 2000) (p := 222) x0 x1 y = Cert.Spec.biasEluRow (n := 50000) (p := 222) X B k := by
  show Cert.Spec.elu (x0 y + x1 (ix2 0 (y 1))) = Cert.Spec.elu (X k + B (ix2 0 (k 1)))
  rw [h0, h1]

variable (V : (c : Dev nD) → (b : Ref sig .tc) → Buf (Elt Ideal) ((c : Thread nD τ).loc b))

-- what grid point t writes back is block t of the whole-array bias-and-ELU: an entry reads one entry and one bias
theorem flushed_elu3 (c : Dev nD) (t : Fin cfg3.N) :
    (dat3 (F := Ideal) V c).flushed 2 t = ((cfg3.win 2).blk t).view.read (Elt Ideal)
      (Cert.Spec.biasEluRow (n := 50000) (p := 222) (V c main_v85) (V c main_v86)) := by
  show (cfg3.win 2).cut (grid3.coords t) ((dat3 (F := Ideal) V c).after 2 t) = _
  rw [after3_2]
  refine (congrArg ((cfg3.win 2).cut (grid3.coords t)) (out_elu3 (iblk3 V c 0 t) (iblk3 V c 1 t))).trans ?_
  obtain ⟨e0, e1, e2, e3, e4, e5⟩ := idx_elu3 t
  funext y
  refine entry_elu3 (V c main_v85) (V c main_v86) (iblk3 V c 0 t) (iblk3 V c 1 t)
    ((cfg3.win 2).xinj (grid3.coords t) y) (((cfg3.win 2).blk t).view.emb y) ?_ ?_
  · show V c main_v85 (((cfg3.win 0).blk t).view.emb ((cfg3.win 2).xinj (grid3.coords t) y)) = V c main_v85 (((cfg3.win 2).blk t).view.emb y)
    refine congrArg (V c main_v85) (funext fun a => Fin.ext ?_)
    match a with
    | ⟨0, _⟩ => show win3_0.index t (0 : Fin 2) * 2000 + 1 * (y 0).val = win3_2.index t (0 : Fin 2) * 2000 + 1 * (y 0).val; omega
    | ⟨1, _⟩ => show win3_0.index t (1 : Fin 2) * 222 + 1 * (y 1).val = win3_2.index t (1 : Fin 2) * 222 + 1 * (y 1).val; omega
  · show V c main_v86 (((cfg3.win 1).blk t).view.emb (ix2 (0 : Fin 1) (((cfg3.win 2).xinj (grid3.coords t) y) 1))) = V c main_v86 (ix2 (0 : Fin 1) ((((cfg3.win 2).blk t).view.emb y) 1))
    refine congrArg (V c main_v86) (funext fun a => Fin.ext ?_)
    match a with
    | ⟨0, _⟩ => show win3_1.index t (0 : Fin 2) * 1 + 1 * 0 = 0; omega
    | ⟨1, _⟩ => show win3_1.index t (1 : Fin 2) * 222 + 1 * (y 1).val = win3_2.index t (1 : Fin 2) * 222 + 1 * (y 1).val; omega

theorem mem_blk_elu3 (t : Fin cfg3.N) (i : S50000x222.Idx) :
    i ∈ ((cfg3.win 2).blk t).view.set ↔ ∀ a : Fin 2, win3_2.index t a * S2000x222.size a ≤ (i a).val ∧ (i a).val < win3_2.index t a * S2000x222.size a + S2000x222.size a := by
  show i ∈ ((View.whole main_v87).slice (win3_2.rect t)).set ↔ _
  rw [View.set_slice_whole, Rect.mem_set_unit]
  exact Iff.rfl

theorem cover_elu3 (i : S50000x222.Idx) :
    ∃ t : Fin cfg3.N, (cfg3.win 2).flush t = true ∧ i ∈ ((cfg3.win 2).blk t).view.set := by
  obtain ⟨q, hq, H⟩ := Cert.Spec.block_of_row i
  have hN : cfg3.N = 25 := N_3
  obtain ⟨-, -, -, -, e0, e1⟩ := idx_elu3 (⟨q, by omega⟩ : Fin cfg3.N)
  exact ⟨⟨q, by omega⟩, flush3_2 _, (mem_blk_elu3 _ i).2 (H _ e0 e1)⟩

-- the blocks of rows cover the array, so the region leaves the bias-and-ELU of the array it finds
theorem arr_elu3 (c : Dev nD) :
    (dat3 (F := Ideal) V c).arrAt 2 cfg3.N = Cert.Spec.biasEluRow (n := 50000) (p := 222) (V c main_v85) (V c main_v86) :=
  (dat3 (F := Ideal) V c).arrAt_eq_of_cover 2 (Cert.Spec.biasEluRow (n := 50000) (p := 222) (V c main_v85) (V c main_v86))
    (fun t _ => flushed_elu3 V c t) cover_elu3

end Cert.KernelIdeal.Hand

end
-- ==== Proof.KIVal4.lean ====
import proofs.«123287_j41248865910880_1_alg».proof.Proof.KIReg4
import proofs.«123287_j41248865910880_1_alg».proof.Proof.MatmulLaws
import proofs.«123287_j41248865910880_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem zero_origin4 : (![0, 0] : Fin 2 → Nat) = fun _ => 0 := funext fun a => by fin_cases a <;> rfl

theorem pay_mm4 (x : Vec Ideal S2000x222 .f32) (w : Vec Ideal S222x222 .f32) :
    k4_pay1 (F := Ideal) x w = Cert.Spec.mm x w := by
  unfold k4_pay1
  dsimp only
  rw [shapeCast_self]
  exact matmul_mm_222_222 _ _

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

-- what grid point t writes back is block t of the whole-array product: a row of a product reads one row of the left factor
theorem flushed_mm4 (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal)
          (Cert.Spec.mm (n := 50000) (k := 222) (p := 222) (V c main_v87) (V c main_arg13)) := by
  show (cfg4.win 2).cut (grid4.coords t) ((dat4 V c).after 2 t) = _
  rw [after4_2]
  unfold out4_2
  rw [View.canon_unit_zero zero_origin4]
  simp only [View.ld_unit_zero (S := S2000x222) zero_origin4, View.ld_unit_zero (S := S222x222) zero_origin4]
  rw [pay_mm4]
  obtain ⟨e00, e01, e10, e11, e20, e21⟩ := idx_facts4 t
  funext j
  show Cert.Spec.mm (n := 2000) (k := 222) (p := 222) (iblk4 V c 0 t) (iblk4 V c 1 t) j
    = Cert.Spec.mm (n := 50000) (k := 222) (p := 222) (V c main_v87) (V c main_arg13) (((cfg4.win 2).blk t).view.emb j)
  refine mm_rows (N := 50000) (n := 2000) (k := 222) (p := 222) (V c main_v87) (V c main_arg13) (iblk4 V c 0 t) (iblk4 V c 1 t) (2000 * t.val) ?_ ?_ j _ ?_ ?_
  · intro y i hi0 hi1
    show V c main_v87 (((cfg4.win 0).blk t).view.emb y) = V c main_v87 i
    congr 1; funext a; apply Fin.ext
    match a with
    | ⟨0, _⟩ => show win4_0.index t (0 : Fin 2) * 2000 + 1 * (y 0).val = (i 0).val; omega
    | ⟨1, _⟩ => show win4_0.index t (1 : Fin 2) * 222 + 1 * (y 1).val = (i 1).val; omega
  · intro y
    show V c main_arg13 (((cfg4.win 1).blk t).view.emb y) = V c main_arg13 y
    congr 1; funext a; apply Fin.ext
    match a with
    | ⟨0, _⟩ => show win4_1.index t (0 : Fin 2) * 222 + 1 * (y 0).val = (y 0).val; omega
    | ⟨1, _⟩ => show win4_1.index t (1 : Fin 2) * 222 + 1 * (y 1).val = (y 1).val; omega
  · show win4_2.index t (0 : Fin 2) * 2000 + 1 * (j 0).val = 2000 * t.val + (j 0).val; omega
  · show win4_2.index t (1 : Fin 2) * 222 + 1 * (j 1).val = (j 1).val; omega

theorem mem_blk4 (t : Fin cfg4.N) (i : S50000x222.Idx) :
    i ∈ ((cfg4.win 2).blk t).view.set ↔ ∀ a : Fin 2, win4_2.index t a * S2000x222.size a ≤ (i a).val
      ∧ (i a).val < win4_2.index t a * S2000x222.size a + S2000x222.size a := by
  show i ∈ ((View.whole main_v88).slice (win4_2.rect t)).set ↔ _
  rw [View.set_slice_whole, Rect.mem_set_unit]
  exact Iff.rfl

theorem cover_mm4 (i : S50000x222.Idx) :
    ∃ t : Fin cfg4.N, (cfg4.win 2).flush t = true ∧ i ∈ ((cfg4.win 2).blk t).view.set := by
  obtain ⟨q, hq, H⟩ := Cert.Spec.block_of_row i
  have hN : cfg4.N = 25 := N_4
  obtain ⟨-, -, -, -, e0, e1⟩ := idx_facts4 (⟨q, by omega⟩ : Fin cfg4.N)
  exact ⟨⟨q, by omega⟩, flush4_2 _, (mem_blk4 _ i).2 (H _ e0 e1)⟩

-- the blocks of rows cover the array, so the region leaves the matrix product of the two arrays it finds
theorem arr_mm4 (V : (c : Dev nD) → (b : Ref sig .tc) → Buf (Elt Ideal) ((c : Thread nD τ).loc b)) (c : Dev nD) :
    (dat4 (F := Ideal) V c).arrAt 2 cfg4.N
      = Cert.Spec.mm (n := 50000) (k := 222) (p := 222) (V c main_v87) (V c main_arg13) :=
  (dat4 (F := Ideal) V c).arrAt_eq_of_cover 2 _ (fun t _ => flushed_mm4 V c t) cover_mm4

end Cert.KernelIdeal.Hand

end
-- ==== Proof.KIVal5.lean ====
import proofs.«123287_j41248865910880_1_alg».proof.Proof.KIReg5
import proofs.«123287_j41248865910880_1_alg».proof.Proof.EluLaws
import proofs.«123287_j41248865910880_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem hz_elu5 : (![0, 0] : Fin 2 → Nat) = fun _ => 0 := funext fun a => by fin_cases a <;> rfl

theorem pay_elu5 (x : Vec Ideal S2000x222 .f32) (b : Vec Ideal S1x222 .f32) :
    k5_pay1 (F := Ideal) x b = Cert.Spec.biasEluRow (n := 2000) (p := 222) x b := by
  unfold k5_pay1
  dsimp only
  rw [shapeCast_self, shapeCast_self]
  refine (Cert.Spec.elu_kernel_form _).trans ?_
  funext i
  obtain ⟨r, j, rfl⟩ : ∃ (r : Fin 2000) (j : Fin 222), i = ix2 r j := ⟨i 0, i 1, eq_ix2 i⟩
  show Cert.Spec.elu (x (ix2 r j) + broadcastTo S2000x222 b broadcasts_S1x222_S2000x222 (ix2 r j))
    = Cert.Spec.elu (x (ix2 r j) + b (ix2 0 j))
  rw [broadcastTo_1b_ab_apply]

theorem out_elu5 (x0 : Vec Ideal S2000x222 .f32) (x1 : Vec Ideal S1x222 .f32) :
    out5_2 (F := Ideal) x0 x1 = Cert.Spec.biasEluRow (n := 2000) (p := 222) x0 x1 := by
  unfold out5_2
  rw [View.canon_unit_zero hz_elu5]
  simp only [View.ld_unit_zero (S := S2000x222) hz_elu5, View.ld_unit_zero (S := S1x222) hz_elu5]
  exact pay_elu5 x0 x1

theorem idx_elu5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem entry_elu5 (X : S50000x222.Idx → EReal) (B : S1x222.Idx → EReal)
    (x0 : S2000x222.Idx → EReal) (x1 : S1x222.Idx → EReal) (y : S2000x222.Idx) (k : S50000x222.Idx)
    (h0 : x0 y = X k) (h1 : x1 (ix2 0 (y 1)) = B (ix2 0 (k 1))) :
    Cert.Spec.biasEluRow (n := 2000) (p := 222) x0 x1 y = Cert.Spec.biasEluRow (n := 50000) (p := 222) X B k := by
  show Cert.Spec.elu (x0 y + x1 (ix2 0 (y 1))) = Cert.Spec.elu (X k + B (ix2 0 (k 1)))
  rw [h0, h1]

variable (V : (c : Dev nD) → (b : Ref sig .tc) → Buf (Elt Ideal) ((c : Thread nD τ).loc b))

-- what grid point t writes back is block t of the whole-array bias-and-ELU: an entry reads one entry and one bias
theorem flushed_elu5 (c : Dev nD) (t : Fin cfg5.N) :
    (dat5 (F := Ideal) V c).flushed 2 t = ((cfg5.win 2).blk t).view.read (Elt Ideal)
      (Cert.Spec.biasEluRow (n := 50000) (p := 222) (V c main_v101) (V c main_v102)) := by
  show (cfg5.win 2).cut (grid5.coords t) ((dat5 (F := Ideal) V c).after 2 t) = _
  rw [after5_2]
  refine (congrArg ((cfg5.win 2).cut (grid5.coords t)) (out_elu5 (iblk5 V c 0 t) (iblk5 V c 1 t))).trans ?_
  obtain ⟨e0, e1, e2, e3, e4, e5⟩ := idx_elu5 t
  funext y
  refine entry_elu5 (V c main_v101) (V c main_v102) (iblk5 V c 0 t) (iblk5 V c 1 t)
    ((cfg5.win 2).xinj (grid5.coords t) y) (((cfg5.win 2).blk t).view.emb y) ?_ ?_
  · show V c main_v101 (((cfg5.win 0).blk t).view.emb ((cfg5.win 2).xinj (grid5.coords t) y)) = V c main_v101 (((cfg5.win 2).blk t).view.emb y)
    refine congrArg (V c main_v101) (funext fun a => Fin.ext ?_)
    match a with
    | ⟨0, _⟩ => show win5_0.index t (0 : Fin 2) * 2000 + 1 * (y 0).val = win5_2.index t (0 : Fin 2) * 2000 + 1 * (y 0).val; omega
    | ⟨1, _⟩ => show win5_0.index t (1 : Fin 2) * 222 + 1 * (y 1).val = win5_2.index t (1 : Fin 2) * 222 + 1 * (y 1).val; omega
  · show V c main_v102 (((cfg5.win 1).blk t).view.emb (ix2 (0 : Fin 1) (((cfg5.win 2).xinj (grid5.coords t) y) 1))) = V c main_v102 (ix2 (0 : Fin 1) ((((cfg5.win 2).blk t).view.emb y) 1))
    refine congrArg (V c main_v102) (funext fun a => Fin.ext ?_)
    match a with
    | ⟨0, _⟩ => show win5_1.index t (0 : Fin 2) * 1 + 1 * 0 = 0; omega
    | ⟨1, _⟩ => show win5_1.index t (1 : Fin 2) * 222 + 1 * (y 1).val = win5_2.index t (1 : Fin 2) * 222 + 1 * (y 1).val; omega

theorem mem_blk_elu5 (t : Fin cfg5.N) (i : S50000x222.Idx) :
    i ∈ ((cfg5.win 2).blk t).view.set ↔ ∀ a : Fin 2, win5_2.index t a * S2000x222.size a ≤ (i a).val ∧ (i a).val < win5_2.index t a * S2000x222.size a + S2000x222.size a := by
  show i ∈ ((View.whole main_v103).slice (win5_2.rect t)).set ↔ _
  rw [View.set_slice_whole, Rect.mem_set_unit]
  exact Iff.rfl

theorem cover_elu5 (i : S50000x222.Idx) :
    ∃ t : Fin cfg5.N, (cfg5.win 2).flush t = true ∧ i ∈ ((cfg5.win 2).blk t).view.set := by
  obtain ⟨q, hq, H⟩ := Cert.Spec.block_of_row i
  have hN : cfg5.N = 25 := N_5
  obtain ⟨-, -, -, -, e0, e1⟩ := idx_elu5 (⟨q, by omega⟩ : Fin cfg5.N)
  exact ⟨⟨q, by omega⟩, flush5_2 _, (mem_blk_elu5 _ i).2 (H _ e0 e1)⟩

-- the blocks of rows cover the array, so the region leaves the bias-and-ELU of the array it finds
theorem arr_elu5 (c : Dev nD) :
    (dat5 (F := Ideal) V c).arrAt 2 cfg5.N = Cert.Spec.biasEluRow (n := 50000) (p := 222) (V c main_v101) (V c main_v102) :=
  (dat5 (F := Ideal) V c).arrAt_eq_of_cover 2 (Cert.Spec.biasEluRow (n := 50000) (p := 222) (V c main_v101) (V c main_v102))
    (fun t _ => flushed_elu5 V c t) cover_elu5

end Cert.KernelIdeal.Hand

end
-- ==== Proof.KIVal6.lean ====
import proofs.«123287_j41248865910880_1_alg».proof.Proof.KIReg6
import proofs.«123287_j41248865910880_1_alg».proof.Proof.Spec
import proofs.«123287_j41248865910880_1_alg».proof.Proof.MatmulLaws
import proofs.«123287_j41248865910880_1_alg».proof.Proof.EluLaws
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem bias_row_apply {n p : Nat} (b : FVec Ideal ⟨2, ![1, p]⟩ .f32) (h : (⟨2, ![1, p]⟩ : Shape).Broadcasts ⟨2, ![n, p]⟩)
    (i : (⟨2, ![n, p]⟩ : Shape).Idx) : broadcastTo ⟨2, ![n, p]⟩ b h i = b (ix2 0 (i 1)) := by
  refine broadcastTo_apply b h i (ix2 0 (i 1)) ?_
  intro a
  match a with
  | ⟨0, _⟩ => rfl
  | ⟨1, _⟩ =>
    show (i 1).val = if p = 1 then 0 else (i 1).val
    split
    · rename_i hp; have h1 : (i 1).val < p := (i 1).isLt; omega
    · rfl

theorem dense_222_512 (x : FVec Ideal S2000x222 .f32) (w : FVec Ideal S222x512 .f32) (b : FVec Ideal S1x512 .f32) :
    addf (matmul dot_S2000x222_S222x512_S2000x512_1_0_0_1_n_n none (truncf .bf16 x bitsLt_bf16_f32) (truncf .bf16 w bitsLt_bf16_f32) (constant (F := Ideal) S2000x512 .f32 0x00000000#32))
      (broadcastTo S2000x512 b broadcasts_S1x512_S2000x512) = Cert.Spec.denseRow x w b := by
  funext i
  rw [addf_apply, bias_row_apply]
  exact congrArg (· + b (ix2 0 (i 1))) (congrFun (matmul_mm_222_512 (truncf .bf16 x bitsLt_bf16_f32) (truncf .bf16 w bitsLt_bf16_f32)) i)

theorem dense_512_128 (x : FVec Ideal S2000x512 .f32) (w : FVec Ideal S512x128 .f32) (b : FVec Ideal S1x128 .f32) :
    addf (matmul dot_S2000x512_S512x128_S2000x128_1_0_0_1_n_n none (truncf .bf16 x bitsLt_bf16_f32) (truncf .bf16 w bitsLt_bf16_f32) (constant (F := Ideal) S2000x128 .f32 0x00000000#32))
      (broadcastTo S2000x128 b broadcasts_S1x128_S2000x128) = Cert.Spec.denseRow x w b := by
  funext i
  rw [addf_apply, bias_row_apply]
  exact congrArg (· + b (ix2 0 (i 1))) (congrFun (matmul_mm_512_128 (truncf .bf16 x bitsLt_bf16_f32) (truncf .bf16 w bitsLt_bf16_f32)) i)

theorem dense_128_1 (x : FVec Ideal S2000x128 .f32) (w : FVec Ideal S128x1 .f32) (b : FVec Ideal S1x1 .f32) :
    addf (matmul dot_S2000x128_S128x1_S2000x1_1_0_0_1_n_n none (truncf .bf16 x bitsLt_bf16_f32) (truncf .bf16 w bitsLt_bf16_f32) (constant (F := Ideal) S2000x1 .f32 0x00000000#32))
      (broadcastTo S2000x1 b broadcasts_S1x1_S2000x1) = Cert.Spec.denseRow x w b := by
  funext i
  rw [addf_apply, bias_row_apply]
  exact congrArg (· + b (ix2 0 (i 1))) (congrFun (matmul_mm_128_1 (truncf .bf16 x bitsLt_bf16_f32) (truncf .bf16 w bitsLt_bf16_f32)) i)

theorem pay_head6 (v0 : Vec Ideal S2000x222 .f32) (v3 : Vec Ideal S222x512 .f32) (v6 : Vec Ideal S1x512 .f32) (v16 : Vec Ideal S512x128 .f32) (v20 : Vec Ideal S1x128 .f32) (v30 : Vec Ideal S128x1 .f32) (v34 : Vec Ideal S1x1 .f32) :
    k6_pay1 (F := Ideal) v0 v3 v6 v16 v20 v30 v34 = Cert.Spec.headRow v0 v3 v6 v16 v20 v30 v34 := by
  unfold k6_pay1
  dsimp only
  rw [shapeCast_self, shapeCast_self, shapeCast_self, shapeCast_self]
  rw [dense_222_512, Cert.Spec.elu_kernel_form, dense_512_128, Cert.Spec.elu_kernel_form, dense_128_1]
  rfl

-- an index whose two coordinates are offset by zero blocks is the index itself
theorem idx_id {n0 n1 i0 i1 : Nat} {e y : (⟨2, ![n0, n1]⟩ : Shape).Idx} (h0 : i0 = 0) (h1 : i1 = 0)
    (he0 : (e 0).val = i0 * n0 + 1 * (y 0).val) (he1 : (e 1).val = i1 * n1 + 1 * (y 1).val) : e = y := by
  subst h0 h1
  funext a; apply Fin.ext
  match a with
  | ⟨0, _⟩ => show (e 0).val = (y 0).val; omega
  | ⟨1, _⟩ => show (e 1).val = (y 1).val; omega

theorem hz6 : (![0, 0] : Fin 2 → Nat) = fun _ => 0 := funext fun a => by fin_cases a <;> rfl

theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

theorem iblk6_0_eq (V : (c : Dev nD) → (b : Ref sig .tc) → Buf (Elt Ideal) ((c : Thread nD τ).loc b)) (c : Dev nD) (t : Fin cfg6.N) :
    iblk6 V c 0 t = V c main_v115 := by
  obtain ⟨e0, e1, -⟩ := idx_facts6 t
  funext y
  show V c main_v115 (((cfg6.win 0).blk t).view.emb y) = V c main_v115 y
  exact congrArg _ (idx_id e0 e1 rfl rfl)

theorem iblk6_1_eq (V : (c : Dev nD) → (b : Ref sig .tc) → Buf (Elt Ideal) ((c : Thread nD τ).loc b)) (c : Dev nD) (t : Fin cfg6.N) :
    iblk6 V c 1 t = V c main_arg15 := by
  obtain ⟨-, -, e0, e1, -⟩ := idx_facts6 t
  funext y
  show V c main_arg15 (((cfg6.win 1).blk t).view.emb y) = V c main_arg15 y
  exact congrArg _ (idx_id e0 e1 rfl rfl)

theorem iblk6_2_eq (V : (c : Dev nD) → (b : Ref sig .tc) → Buf (Elt Ideal) ((c : Thread nD τ).loc b)) (c : Dev nD) (t : Fin cfg6.N) :
    iblk6 V c 2 t = V c main_v116 := by
  obtain ⟨-, -, -, -, e0, e1, -⟩ := idx_facts6 t
  funext y
  show V c main_v116 (((cfg6.win 2).blk t).view.emb y) = V c main_v116 y
  exact congrArg _ (idx_id e0 e1 rfl rfl)

theorem iblk6_3_eq (V : (c : Dev nD) → (b : Ref sig .tc) → Buf (Elt Ideal) ((c : Thread nD τ).loc b)) (c : Dev nD) (t : Fin cfg6.N) :
    iblk6 V c 3 t = V c main_arg17 := by
  obtain ⟨-, -, -, -, -, -, e0, e1, -⟩ := idx_facts6 t
  funext y
  show V c main_arg17 (((cfg6.win 3).blk t).view.emb y) = V c main_arg17 y
  exact congrArg _ (idx_id e0 e1 rfl rfl)

theorem iblk6_4_eq (V : (c : Dev nD) → (b : Ref sig .tc) → Buf (Elt Ideal) ((c : Thread nD τ).loc b)) (c : Dev nD) (t : Fin cfg6.N) :
    iblk6 V c 4 t = V c main_v117 := by
  obtain ⟨-, -, -, -, -, -, -, -, e0, e1, -⟩ := idx_facts6 t
  funext y
  show V c main_v117 (((cfg6.win 4).blk t).view.emb y) = V c main_v117 y
  exact congrArg _ (idx_id e0 e1 rfl rfl)

theorem iblk6_5_eq (V : (c : Dev nD) → (b : Ref sig .tc) → Buf (Elt Ideal) ((c : Thread nD τ).loc b)) (c : Dev nD) (t : Fin cfg6.N) :
    iblk6 V c 5 t = V c main_arg19 := by
  obtain ⟨-, -, -, -, -, -, -, -, -, -, e0, e1, -⟩ := idx_facts6 t
  funext y
  show V c main_arg19 (((cfg6.win 5).blk t).view.emb y) = V c main_arg19 y
  exact congrArg _ (idx_id e0 e1 rfl rfl)

theorem iblk6_6_eq (V : (c : Dev nD) → (b : Ref sig .tc) → Buf (Elt Ideal) ((c : Thread nD τ).loc b)) (c : Dev nD) (t : Fin cfg6.N) :
    iblk6 V c 6 t = V c main_v118 := by
  obtain ⟨-, -, -, -, -, -, -, -, -, -, -, -, e0, e1, -⟩ := idx_facts6 t
  funext y
  show V c main_v118 (((cfg6.win 6).blk t).view.emb y) = V c main_v118 y
  exact congrArg _ (idx_id e0 e1 rfl rfl)

theorem read_blk6_7 (t : Fin cfg6.N) (G : S2000x1.Idx → Elt Ideal .f32) :
    ((cfg6.win 7).blk t).view.read (Elt Ideal) G = G := by
  obtain ⟨-, -, -, -, -, -, -, -, -, -, -, -, -, -, e0, e1⟩ := idx_facts6 t
  funext y
  show G (((cfg6.win 7).blk t).view.emb y) = G y
  exact congrArg _ (idx_id e0 e1 rfl rfl)

theorem flushed_head6 (V : (c : Dev nD) → (b : Ref sig .tc) → Buf (Elt Ideal) ((c : Thread nD τ).loc b)) (c : Dev nD) (t : Fin cfg6.N) :
    (dat6 (F := Ideal) V c).flushed 7 t = ((cfg6.win 7).blk t).view.read (Elt Ideal)
      (Cert.Spec.headRow (V c main_v115) (V c main_arg15) (V c main_v116) (V c main_arg17) (V c main_v117) (V c main_arg19) (V c main_v118)) := by
  rw [read_blk6_7]
  show (cfg6.win 7).cut (grid6.coords t) ((dat6 V c).after 7 t) = _
  rw [after6_7]
  unfold out6_7
  rw [View.canon_unit_zero hz6]
  simp only [View.ld_unit_zero (S := S2000x222) hz6, View.ld_unit_zero (S := S222x512) hz6, View.ld_unit_zero (S := S1x512) hz6, View.ld_unit_zero (S := S512x128) hz6, View.ld_unit_zero (S := S1x128) hz6, View.ld_unit_zero (S := S128x1) hz6, View.ld_unit_zero (S := S1x1) hz6]
  rw [pay_head6, iblk6_0_eq, iblk6_1_eq, iblk6_2_eq, iblk6_3_eq, iblk6_4_eq, iblk6_5_eq, iblk6_6_eq]
  rfl

-- one grid point holds every array whole, so the region leaves the dense head of the arrays it finds
theorem arr_head6 (V : (c : Dev nD) → (b : Ref sig .tc) → Buf (Elt Ideal) ((c : Thread nD τ).loc b)) (c : Dev nD) :
    (dat6 (F := Ideal) V c).arrAt 7 cfg6.N = Cert.Spec.headRow (V c main_v115) (V c main_arg15) (V c main_v116) (V c main_arg17) (V c main_v117) (V c main_arg19) (V c main_v118) := by
  refine (dat6 (F := Ideal) V c).arrAt_eq_of_cover 7 _ (fun t _ => flushed_head6 V c t) (fun i => ⟨t6_0, flush6_7 t6_0, ?_⟩)
  show i ∈ ((View.whole main_v119).slice (win6_7.rect t6_0)).set
  rw [View.set_slice_whole, Rect.mem_set_unit]
  obtain ⟨-, -, -, -, -, -, -, -, -, -, -, -, -, -, e0, e1⟩ := idx_facts6 t6_0
  intro a
  match a with
  | ⟨0, _⟩ => show win6_7.index t6_0 (0 : Fin 2) * 2000 ≤ (i 0).val ∧ (i 0).val < win6_7.index t6_0 (0 : Fin 2) * 2000 + 2000; have h : (i 0).val < 2000 := (i 0).isLt; omega
  | ⟨1, _⟩ => show win6_7.index t6_0 (1 : Fin 2) * 1 ≤ (i 1).val ∧ (i 1).val < win6_7.index t6_0 (1 : Fin 2) * 1 + 1; have h : (i 1).val < 1 := (i 1).isLt; omega

end Cert.KernelIdeal.Hand

end
-- ==== Proof.BridgeMsg.lean ====
import proofs.«123287_j41248865910880_1_alg».proof.Proof.Gen.KernelIdeal.Launch
import proofs.«123287_j41248865910880_1_alg».proof.Proof.RefOps
import Idealize.ShloMosaic.Lib.StableHlo.Run
import proofs.«123287_j41248865910880_1_alg».proof.Proof.Spec
import Idealize.ShloMosaic.Lib.ValueLayout

noncomputable section

namespace Cert.Bridge

open Idealize.ShloMosaic Idealize.ShloMosaic.TcCoe Idealize.SL.Sem Idealize.ShloMosaic.StableHlo

variable {F : FTy → Type} [FloatOps F]

local notation "𝕂" => Valuation Cert.KernelIdeal.τ Cert.KernelIdeal.sig (Elt F)
local notation "ℝ𝕖" => Valuation Cert.ReferenceIdeal.τ Cert.ReferenceIdeal.sig (Elt F)
local notation "kref" => (Proc.devRef (τ := Cert.KernelIdeal.τ) (sig := Cert.KernelIdeal.sig) Proc.tc)
local notation "rref" => (Proc.devRef (τ := Cert.ReferenceIdeal.τ) (sig := Cert.ReferenceIdeal.sig) Proc.tc)

set_option maxHeartbeats 1000000 in
theorem msg1 (WK : 𝕂) (UR : ℝ𝕖)
    (hx : WK (kref KernelIdeal.main_v56) = UR (rref ReferenceIdeal.main_v29))
    (hs : WK (kref KernelIdeal.main_v25) = UR (rref ReferenceIdeal.main_v25))
    (ht : WK (kref KernelIdeal.main_v28) = UR (rref ReferenceIdeal.main_v28))
    (hw : WK (kref KernelIdeal.main_v55) = UR (rref ReferenceIdeal.main_v56)) :
    after KernelIdeal.Gen.hostOps1 WK (kref KernelIdeal.main_v69)
      = after ReferenceIdeal.Hand.ops_msg1 UR (rref ReferenceIdeal.main_v69) := by
  after_results_simp
  rw [hx, hs, ht, hw]
  rfl

theorem bias1_cast (WK : 𝕂) :
    after KernelIdeal.Gen.hostOps1 WK (kref KernelIdeal.main_v70)
      = shapeCast KernelIdeal.S1x222 (WK (kref KernelIdeal.main_arg10)) KernelIdeal.Gen.shapeCasts_S222_S1x222 := by
  after_results_simp
  rfl

theorem bias1_row (WK : Valuation Cert.KernelIdeal.τ Cert.KernelIdeal.sig (Elt Ideal)) :
    after (KernelIdeal.Gen.hostOps1 (F := Ideal)) WK (kref KernelIdeal.main_v70)
      = Cert.Spec.rowOf (p := 222) (WK (kref KernelIdeal.main_arg10)) := by
  rw [bias1_cast]
  funext i
  rw [ValueIdx.eq_ix2 i]
  exact ValueIdx.shapeCast_a_1a_apply _ _ _ _

set_option maxHeartbeats 1000000 in
theorem msg2 (WK : 𝕂) (UR : ℝ𝕖)
    (hx : WK (kref KernelIdeal.main_v72) = UR (rref ReferenceIdeal.main_v74))
    (hs : WK (kref KernelIdeal.main_v25) = UR (rref ReferenceIdeal.main_v25))
    (ht : WK (kref KernelIdeal.main_v28) = UR (rref ReferenceIdeal.main_v28))
    (hw : WK (kref KernelIdeal.main_v55) = UR (rref ReferenceIdeal.main_v101)) :
    after KernelIdeal.Gen.hostOps3 WK (kref KernelIdeal.main_v85)
      = after ReferenceIdeal.Hand.ops_msg2 UR (rref ReferenceIdeal.main_v114) := by
  after_results_simp
  rw [hx, hs, ht, hw]
  rfl

theorem bias2_cast (WK : 𝕂) :
    after KernelIdeal.Gen.hostOps3 WK (kref KernelIdeal.main_v86)
      = shapeCast KernelIdeal.S1x222 (WK (kref KernelIdeal.main_arg12)) KernelIdeal.Gen.shapeCasts_S222_S1x222 := by
  after_results_simp
  rfl

theorem bias2_row (WK : Valuation Cert.KernelIdeal.τ Cert.KernelIdeal.sig (Elt Ideal)) :
    after (KernelIdeal.Gen.hostOps3 (F := Ideal)) WK (kref KernelIdeal.main_v86)
      = Cert.Spec.rowOf (p := 222) (WK (kref KernelIdeal.main_arg12)) := by
  rw [bias2_cast]
  funext i
  rw [ValueIdx.eq_ix2 i]
  exact ValueIdx.shapeCast_a_1a_apply _ _ _ _

set_option maxHeartbeats 1000000 in
theorem msg3 (WK : 𝕂) (UR : ℝ𝕖)
    (hx : WK (kref KernelIdeal.main_v88) = UR (rref ReferenceIdeal.main_v119))
    (hs : WK (kref KernelIdeal.main_v25) = UR (rref ReferenceIdeal.main_v25))
    (ht : WK (kref KernelIdeal.main_v28) = UR (rref ReferenceIdeal.main_v28))
    (hw : WK (kref KernelIdeal.main_v55) = UR (rref ReferenceIdeal.main_v146)) :
    after KernelIdeal.Gen.hostOps5 WK (kref KernelIdeal.main_v101)
      = after ReferenceIdeal.Hand.ops_msg3 UR (rref ReferenceIdeal.main_v159) := by
  after_results_simp
  rw [hx, hs, ht, hw]
  rfl

theorem bias3_cast (WK : 𝕂) :
    after KernelIdeal.Gen.hostOps5 WK (kref KernelIdeal.main_v102)
      = shapeCast KernelIdeal.S1x222 (WK (kref KernelIdeal.main_arg14)) KernelIdeal.Gen.shapeCasts_S222_S1x222 := by
  after_results_simp
  rfl

theorem bias3_row (WK : Valuation Cert.KernelIdeal.τ Cert.KernelIdeal.sig (Elt Ideal)) :
    after (KernelIdeal.Gen.hostOps5 (F := Ideal)) WK (kref KernelIdeal.main_v102)
      = Cert.Spec.rowOf (p := 222) (WK (kref KernelIdeal.main_arg14)) := by
  rw [bias3_cast]
  funext i
  rw [ValueIdx.eq_ix2 i]
  exact ValueIdx.shapeCast_a_1a_apply _ _ _ _

end Cert.Bridge

end
-- ==== Proof.BridgePool.lean ====
import proofs.«123287_j41248865910880_1_alg».proof.Proof.Gen.KernelIdeal.Launch
import proofs.«123287_j41248865910880_1_alg».proof.Proof.RefOps
import Idealize.ShloMosaic.Lib.StableHlo.Run
import proofs.«123287_j41248865910880_1_alg».proof.Proof.Spec
import Idealize.ShloMosaic.Lib.ValueLayout

noncomputable section

namespace Cert.Bridge

open Idealize.ShloMosaic Idealize.ShloMosaic.TcCoe Idealize.SL.Sem Idealize.ShloMosaic.StableHlo

variable {F : FTy → Type} [FloatOps F]

local notation "𝕂" => Valuation Cert.KernelIdeal.τ Cert.KernelIdeal.sig (Elt F)
local notation "ℝ𝕖" => Valuation Cert.ReferenceIdeal.τ Cert.ReferenceIdeal.sig (Elt F)
local notation "kref" => (Proc.devRef (τ := Cert.KernelIdeal.τ) (sig := Cert.KernelIdeal.sig) Proc.tc)
local notation "rref" => (Proc.devRef (τ := Cert.ReferenceIdeal.τ) (sig := Cert.ReferenceIdeal.sig) Proc.tc)

set_option maxHeartbeats 1000000 in
theorem pool (WK : 𝕂) (UR : ℝ𝕖)
    (hx : WK (kref KernelIdeal.main_v103) = UR (rref ReferenceIdeal.main_v163))
    (hg : WK (kref KernelIdeal.main_arg5) = UR (rref ReferenceIdeal.main_arg5)) :
    after KernelIdeal.Gen.hostOps6 WK (kref KernelIdeal.main_v115)
      = after ReferenceIdeal.Hand.ops_pool UR (rref ReferenceIdeal.main_v175) := by
  after_results_simp
  rw [hx, hg]
  rfl

theorem head1_cast (WK : 𝕂) :
    after KernelIdeal.Gen.hostOps6 WK (kref KernelIdeal.main_v116)
      = shapeCast KernelIdeal.S1x512 (WK (kref KernelIdeal.main_arg16)) KernelIdeal.Gen.shapeCasts_S512_S1x512 := by
  after_results_simp
  rfl

theorem head1_row (WK : Valuation Cert.KernelIdeal.τ Cert.KernelIdeal.sig (Elt Ideal)) :
    after (KernelIdeal.Gen.hostOps6 (F := Ideal)) WK (kref KernelIdeal.main_v116)
      = Cert.Spec.rowOf (p := 512) (WK (kref KernelIdeal.main_arg16)) := by
  rw [head1_cast]
  funext i
  rw [ValueIdx.eq_ix2 i]
  exact ValueIdx.shapeCast_a_1a_apply _ _ _ _

theorem head2_cast (WK : 𝕂) :
    after KernelIdeal.Gen.hostOps6 WK (kref KernelIdeal.main_v117)
      = shapeCast KernelIdeal.S1x128 (WK (kref KernelIdeal.main_arg18)) KernelIdeal.Gen.shapeCasts_S128_S1x128 := by
  after_results_simp
  rfl

theorem head2_row (WK : Valuation Cert.KernelIdeal.τ Cert.KernelIdeal.sig (Elt Ideal)) :
    after (KernelIdeal.Gen.hostOps6 (F := Ideal)) WK (kref KernelIdeal.main_v117)
      = Cert.Spec.rowOf (p := 128) (WK (kref KernelIdeal.main_arg18)) := by
  rw [head2_cast]
  funext i
  rw [ValueIdx.eq_ix2 i]
  exact ValueIdx.shapeCast_a_1a_apply _ _ _ _

theorem head3_cast (WK : 𝕂) :
    after KernelIdeal.Gen.hostOps6 WK (kref KernelIdeal.main_v118)
      = shapeCast KernelIdeal.S1x1 (WK (kref KernelIdeal.main_arg20)) KernelIdeal.Gen.shapeCasts_S1_S1x1 := by
  after_results_simp
  rfl

theorem head3_row (WK : Valuation Cert.KernelIdeal.τ Cert.KernelIdeal.sig (Elt Ideal)) :
    after (KernelIdeal.Gen.hostOps6 (F := Ideal)) WK (kref KernelIdeal.main_v118)
      = Cert.Spec.rowOf (p := 1) (WK (kref KernelIdeal.main_arg20)) := by
  rw [head3_cast]
  funext i
  rw [ValueIdx.eq_ix2 i]
  exact ValueIdx.shapeCast_a_1a_apply _ _ _ _

end Cert.Bridge

end
-- ==== Proof.KIChain.lean ====
import proofs.«123287_j41248865910880_1_alg».proof.Proof.KIRun
import proofs.«123287_j41248865910880_1_alg».proof.Proof.KIVal0
import proofs.«123287_j41248865910880_1_alg».proof.Proof.KIVal1
import proofs.«123287_j41248865910880_1_alg».proof.Proof.KIVal2
import proofs.«123287_j41248865910880_1_alg».proof.Proof.KIVal3
import proofs.«123287_j41248865910880_1_alg».proof.Proof.KIVal4
import proofs.«123287_j41248865910880_1_alg».proof.Proof.KIVal5
import proofs.«123287_j41248865910880_1_alg».proof.Proof.KIVal6
import proofs.«123287_j41248865910880_1_alg».proof.Proof.Spec
import proofs.«123287_j41248865910880_1_alg».proof.Proof.BridgeMsg
import proofs.«123287_j41248865910880_1_alg».proof.Proof.BridgePool

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

-- the regions' results and the later host stretches are numbered from 92 on: an earlier buffer passes from the first stage to a later one
theorem W2_eq (b : Ref sig .tc) (h : b.idx.val < 92 := by decide) : W2 m ρ c (Proc.devRef .tc b) = W1 m ρ c (Proc.devRef .tc b) :=
  keep_reg0 m ρ c b (Seg.ne_of_lt h)
theorem W4_eq (b : Ref sig .tc) (h : b.idx.val < 92 := by decide) : W4 m ρ c (Proc.devRef .tc b) = W1 m ρ c (Proc.devRef .tc b) :=
  (keep_reg1 m ρ c b (Seg.ne_of_lt h)).trans ((good_host1.keep_lt _ b h).trans (W2_eq m ρ c b h))
theorem W5_eq (b : Ref sig .tc) (h : b.idx.val < 92 := by decide) : W5 m ρ c (Proc.devRef .tc b) = W1 m ρ c (Proc.devRef .tc b) :=
  (keep_reg2 m ρ c b (Seg.ne_of_lt h)).trans (W4_eq m ρ c b h)
theorem W7_eq (b : Ref sig .tc) (h : b.idx.val < 92 := by decide) : W7 m ρ c (Proc.devRef .tc b) = W1 m ρ c (Proc.devRef .tc b) :=
  (keep_reg3 m ρ c b (Seg.ne_of_lt h)).trans ((good_host3.keep_lt _ b h).trans (W5_eq m ρ c b h))
theorem W8_eq (b : Ref sig .tc) (h : b.idx.val < 92 := by decide) : W8 m ρ c (Proc.devRef .tc b) = W1 m ρ c (Proc.devRef .tc b) :=
  (keep_reg4 m ρ c b (Seg.ne_of_lt h)).trans (W7_eq m ρ c b h)

-- an argument, numbered below every written buffer, holds its launch contents at every stage
theorem kept (b : Ref sig .tc) (h : b.idx.val < 21 := by decide) :
    W1 m ρ c (Proc.devRef .tc b) = m ((c : Thread nD τ).loc b) ∧ W2 m ρ c (Proc.devRef .tc b) = m ((c : Thread nD τ).loc b) ∧ W4 m ρ c (Proc.devRef .tc b) = m ((c : Thread nD τ).loc b) ∧ W5 m ρ c (Proc.devRef .tc b) = m ((c : Thread nD τ).loc b)
      ∧ W7 m ρ c (Proc.devRef .tc b) = m ((c : Thread nD τ).loc b) ∧ W8 m ρ c (Proc.devRef .tc b) = m ((c : Thread nD τ).loc b) ∧ W10 m ρ c (Proc.devRef .tc b) = m ((c : Thread nD τ).loc b) ∧ W11 m ρ c (Proc.devRef .tc b) = m ((c : Thread nD τ).loc b) :=
  have h' : b.idx.val < 92 := Nat.lt_trans h (by decide)
  have k1 : W1 m ρ c (Proc.devRef .tc b) = m ((c : Thread nD τ).loc b) := good_host0.keep_lt (W0 m ρ c) b h
  have k10 : W10 m ρ c (Proc.devRef .tc b) = m ((c : Thread nD τ).loc b) :=
    (keep_reg5 m ρ c b (Seg.ne_of_lt h)).trans ((good_host5.keep_lt _ b h).trans ((W8_eq m ρ c b h').trans k1))
  ⟨k1, (W2_eq m ρ c b h').trans k1, (W4_eq m ρ c b h').trans k1, (W5_eq m ρ c b h').trans k1, (W7_eq m ρ c b h').trans k1,
    (W8_eq m ρ c b h').trans k1, k10, (good_host6.keep_lt _ b h).trans k10⟩

-- each region's result with every argument read at launch
theorem kc_dot1 : W2 m ρ c (Proc.devRef .tc main_v56) = Cert.Spec.mm (n := 50000) (k := 222) (p := 222) (W1 m ρ c (Proc.devRef .tc main_v21)) (m ((c : Thread nD τ).loc main_arg9)) :=
  (W2_arr m ρ c 2).trans ((arr_mm0 (V1 m ρ) c).trans
    (congrArg (Cert.Spec.mm (n := 50000) (k := 222) (p := 222) (W1 m ρ c (Proc.devRef .tc main_v21))) (kept m ρ c main_arg9).1))

theorem kc_elu1 : W4 m ρ c (Proc.devRef .tc main_v71) = Cert.Spec.biasElu (n := 50000) (p := 222) (W3 m ρ c (Proc.devRef .tc main_v69)) (m ((c : Thread nD τ).loc main_arg10)) := by
  refine (W4_arr m ρ c 2).trans ((arr_elu1 (V3 m ρ) c).trans ?_)
  have hb : V3 m ρ c main_v70 = Cert.Spec.rowOf (p := 222) (m ((c : Thread nD τ).loc main_arg10)) :=
    (Cert.Bridge.bias1_row (W2 m ρ c)).trans (congrArg (Cert.Spec.rowOf (p := 222)) (kept m ρ c main_arg10).2.1)
  rw [hb]
  exact Cert.Spec.biasEluRow_rowOf _ _

theorem kc_dot2 : W5 m ρ c (Proc.devRef .tc main_v72) = Cert.Spec.mm (n := 50000) (k := 222) (p := 222) (W4 m ρ c (Proc.devRef .tc main_v71)) (m ((c : Thread nD τ).loc main_arg11)) :=
  (W5_arr m ρ c 2).trans ((arr_mm2 (V4 m ρ) c).trans
    (congrArg (Cert.Spec.mm (n := 50000) (k := 222) (p := 222) (W4 m ρ c (Proc.devRef .tc main_v71))) (kept m ρ c main_arg11).2.2.1))

theorem kc_elu2 : W7 m ρ c (Proc.devRef .tc main_v87) = Cert.Spec.biasElu (n := 50000) (p := 222) (W6 m ρ c (Proc.devRef .tc main_v85)) (m ((c : Thread nD τ).loc main_arg12)) := by
  refine (W7_arr m ρ c 2).trans ((arr_elu3 (V6 m ρ) c).trans ?_)
  have hb : V6 m ρ c main_v86 = Cert.Spec.rowOf (p := 222) (m ((c : Thread nD τ).loc main_arg12)) :=
    (Cert.Bridge.bias2_row (W5 m ρ c)).trans (congrArg (Cert.Spec.rowOf (p := 222)) (kept m ρ c main_arg12).2.2.2.1)
  rw [hb]
  exact Cert.Spec.biasEluRow_rowOf _ _

theorem kc_dot3 : W8 m ρ c (Proc.devRef .tc main_v88) = Cert.Spec.mm (n := 50000) (k := 222) (p := 222) (W7 m ρ c (Proc.devRef .tc main_v87)) (m ((c : Thread nD τ).loc main_arg13)) :=
  (W8_arr m ρ c 2).trans ((arr_mm4 (V7 m ρ) c).trans
    (congrArg (Cert.Spec.mm (n := 50000) (k := 222) (p := 222) (W7 m ρ c (Proc.devRef .tc main_v87))) (kept m ρ c main_arg13).2.2.2.2.1))

theorem kc_elu3 : W10 m ρ c (Proc.devRef .tc main_v103) = Cert.Spec.biasElu (n := 50000) (p := 222) (W9 m ρ c (Proc.devRef .tc main_v101)) (m ((c : Thread nD τ).loc main_arg14)) := by
  refine (W10_arr m ρ c 2).trans ((arr_elu5 (V9 m ρ) c).trans ?_)
  have hb : V9 m ρ c main_v102 = Cert.Spec.rowOf (p := 222) (m ((c : Thread nD τ).loc main_arg14)) :=
    (Cert.Bridge.bias3_row (W8 m ρ c)).trans (congrArg (Cert.Spec.rowOf (p := 222)) (kept m ρ c main_arg14).2.2.2.2.2.1)
  rw [hb]
  exact Cert.Spec.biasEluRow_rowOf _ _

theorem kc_head : (dat6 (F := Ideal) (V11 m ρ) c).arrAt 7 cfg6.N
    = Cert.Spec.headRow (W11 m ρ c (Proc.devRef .tc main_v115)) (m ((c : Thread nD τ).loc main_arg15)) (Cert.Spec.rowOf (p := 512) (m ((c : Thread nD τ).loc main_arg16)))
        (m ((c : Thread nD τ).loc main_arg17)) (Cert.Spec.rowOf (p := 128) (m ((c : Thread nD τ).loc main_arg18))) (m ((c : Thread nD τ).loc main_arg19)) (Cert.Spec.rowOf (p := 1) (m ((c : Thread nD τ).loc main_arg20))) := by
  refine (arr_head6 (V11 m ρ) c).trans ?_
  have h15 : V11 m ρ c main_arg15 = (m ((c : Thread nD τ).loc main_arg15)) := (kept m ρ c main_arg15).2.2.2.2.2.2.2
  have h17 : V11 m ρ c main_arg17 = (m ((c : Thread nD τ).loc main_arg17)) := (kept m ρ c main_arg17).2.2.2.2.2.2.2
  have h19 : V11 m ρ c main_arg19 = (m ((c : Thread nD τ).loc main_arg19)) := (kept m ρ c main_arg19).2.2.2.2.2.2.2
  have h16 : V11 m ρ c main_v116 = Cert.Spec.rowOf (p := 512) (m ((c : Thread nD τ).loc main_arg16)) :=
    (Cert.Bridge.head1_row (W10 m ρ c)).trans (congrArg (Cert.Spec.rowOf (p := 512)) (kept m ρ c main_arg16).2.2.2.2.2.2.1)
  have h18 : V11 m ρ c main_v117 = Cert.Spec.rowOf (p := 128) (m ((c : Thread nD τ).loc main_arg18)) :=
    (Cert.Bridge.head2_row (W10 m ρ c)).trans (congrArg (Cert.Spec.rowOf (p := 128)) (kept m ρ c main_arg18).2.2.2.2.2.2.1)
  have h20 : V11 m ρ c main_v118 = Cert.Spec.rowOf (p := 1) (m ((c : Thread nD τ).loc main_arg20)) :=
    (Cert.Bridge.head3_row (W10 m ρ c)).trans (congrArg (Cert.Spec.rowOf (p := 1)) (kept m ρ c main_arg20).2.2.2.2.2.2.1)
  rw [h15, h17, h19, h16, h18, h20]

theorem kc_arg5 : W10 m ρ c (Proc.devRef .tc main_arg5) = (m ((c : Thread nD τ).loc main_arg5)) := (kept m ρ c main_arg5).2.2.2.2.2.2.1

end Cert.KernelIdeal.Hand

end
-- ==== Proof.RefDotLaws.lean ====
import proofs.«123287_j41248865910880_1_alg».proof.ReferenceIdeal
import proofs.«123287_j41248865910880_1_alg».proof.Proof.Spec
import Idealize.ShloMosaic.PureOps.Ideal.Laws
import Idealize.ShloMosaic.Lib.StackMember

noncomputable section

namespace Cert.ReferenceIdeal.Hand

open Cert.ReferenceIdeal
open Idealize.ShloMosaic Idealize.ShloMosaic.ValueIdx

variable [Facts₀]

-- the plain two-operand product, read entry by entry, sums over the contracted coordinate: the matrix product
theorem plain_mm {n k p : Nat} (x : FVec Ideal ⟨2, ![n, k]⟩ .f32) (w : FVec Ideal ⟨2, ![k, p]⟩ .f32) :
    Host.dotGeneral (F := Ideal) (DotDims.plain n k p) none x w = Cert.Spec.mm x w := by
  funext i
  rw [eq_ix2 i]
  exact StackMember.dotGeneral_plain_apply none x w (i 0) (i 1)

-- each record of dimension numbers the reference uses is the plain one
theorem dot_mm_50000 (x : FVec Ideal S50000x222 .f32) (w : FVec Ideal S222x222 .f32) :
    Host.dotGeneral (F := Ideal) dot_S50000x222_S222x222_S50000x222_1_0_0_1_n_n none x w
      = Cert.Spec.mm (n := 50000) (k := 222) (p := 222) x w := plain_mm x w
theorem dot_mm_222_512 (x : FVec Ideal S2000x222 .f32) (w : FVec Ideal S222x512 .f32) :
    Host.dotGeneral (F := Ideal) dot_S2000x222_S222x512_S2000x512_1_0_0_1_n_n none x w
      = Cert.Spec.mm (n := 2000) (k := 222) (p := 512) x w := plain_mm x w
theorem dot_mm_512_128 (x : FVec Ideal S2000x512 .f32) (w : FVec Ideal S512x128 .f32) :
    Host.dotGeneral (F := Ideal) dot_S2000x512_S512x128_S2000x128_1_0_0_1_n_n none x w
      = Cert.Spec.mm (n := 2000) (k := 512) (p := 128) x w := plain_mm x w
theorem dot_mm_128_1 (x : FVec Ideal S2000x128 .f32) (w : FVec Ideal S128x1 .f32) :
    Host.dotGeneral (F := Ideal) dot_S2000x128_S128x1_S2000x1_1_0_0_1_n_n none x w
      = Cert.Spec.mm (n := 2000) (k := 128) (p := 1) x w := plain_mm x w

end Cert.ReferenceIdeal.Hand

end
-- ==== Proof.RefChain.lean ====
import proofs.«123287_j41248865910880_1_alg».proof.Proof.RefOps
import proofs.«123287_j41248865910880_1_alg».proof.Proof.RefDotLaws
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

abbrev U_feat (U0 : Valuation τ sig (Elt Ideal)) : Valuation τ sig (Elt Ideal) := after ops_feat U0
abbrev U_d1 (U0 : Valuation τ sig (Elt Ideal)) : Valuation τ sig (Elt Ideal) := after ops_dot1 (U_feat U0)
abbrev U_n1 (U0 : Valuation τ sig (Elt Ideal)) : Valuation τ sig (Elt Ideal) := after ops_norm1 (U_d1 U0)
abbrev U_m1 (U0 : Valuation τ sig (Elt Ideal)) : Valuation τ sig (Elt Ideal) := after ops_msg1 (U_n1 U0)
abbrev U_b1 (U0 : Valuation τ sig (Elt Ideal)) : Valuation τ sig (Elt Ideal) := after ops_bias1 (U_m1 U0)
abbrev U_e1 (U0 : Valuation τ sig (Elt Ideal)) : Valuation τ sig (Elt Ideal) := after ops_elu1 (U_b1 U0)
abbrev U_d2 (U0 : Valuation τ sig (Elt Ideal)) : Valuation τ sig (Elt Ideal) := after ops_dot2 (U_e1 U0)
abbrev U_n2 (U0 : Valuation τ sig (Elt Ideal)) : Valuation τ sig (Elt Ideal) := after ops_norm2 (U_d2 U0)
abbrev U_m2 (U0 : Valuation τ sig (Elt Ideal)) : Valuation τ sig (Elt Ideal) := after ops_msg2 (U_n2 U0)
abbrev U_b2 (U0 : Valuation τ sig (Elt Ideal)) : Valuation τ sig (Elt Ideal) := after ops_bias2 (U_m2 U0)
abbrev U_e2 (U0 : Valuation τ sig (Elt Ideal)) : Valuation τ sig (Elt Ideal) := after ops_elu2 (U_b2 U0)
abbrev U_d3 (U0 : Valuation τ sig (Elt Ideal)) : Valuation τ sig (Elt Ideal) := after ops_dot3 (U_e2 U0)
abbrev U_n3 (U0 : Valuation τ sig (Elt Ideal)) : Valuation τ sig (Elt Ideal) := after ops_norm3 (U_d3 U0)
abbrev U_m3 (U0 : Valuation τ sig (Elt Ideal)) : Valuation τ sig (Elt Ideal) := after ops_msg3 (U_n3 U0)
abbrev U_b3 (U0 : Valuation τ sig (Elt Ideal)) : Valuation τ sig (Elt Ideal) := after ops_bias3 (U_m3 U0)
abbrev U_e3 (U0 : Valuation τ sig (Elt Ideal)) : Valuation τ sig (Elt Ideal) := after ops_elu3 (U_b3 U0)
abbrev U_pool (U0 : Valuation τ sig (Elt Ideal)) : Valuation τ sig (Elt Ideal) := after ops_pool (U_e3 U0)
abbrev U_end (U0 : Valuation τ sig (Elt Ideal)) : Valuation τ sig (Elt Ideal) := after (ops_fc1 ++ (ops_elu4 ++ (ops_fc2 ++ (ops_elu5 ++ ops_fc3)))) (U_pool U0)

-- the whole line's contents are the last stage's
theorem after_ops_chain (U0 : Valuation τ sig (Elt Ideal)) : after ops U0 = U_end U0 := by
  simp only [ops, ops_agg1, ops_agg2, ops_agg3, U_end, U_pool, U_e3, U_b3, U_m3, U_n3, U_d3, U_e2, U_b2, U_m2, U_n2, U_d2, U_e1, U_b1, U_m1, U_n1, U_d1,
    U_feat, after_append]

theorem after_single {F : FTy → Type} (op : HloOp τ sig (Elt F)) (V : Valuation τ sig (Elt F)) : after [op] V = op.result V := rfl

section
variable (U0 : Valuation τ sig (Elt Ideal)) (r : Ref sig .tc)

-- the stages after the first write buffers numbered from 56 on: an earlier buffer stays as the first stage left it
theorem U_d1_feat (h : r.idx.val < 56) : U_d1 U0 (Proc.devRef .tc r) = U_feat U0 (Proc.devRef .tc r) :=
  good_dot1.step h rfl
theorem U_n1_feat (h : r.idx.val < 56) : U_n1 U0 (Proc.devRef .tc r) = U_feat U0 (Proc.devRef .tc r) :=
  good_norm1.step h (U_d1_feat U0 r h)
theorem U_m1_feat (h : r.idx.val < 56) : U_m1 U0 (Proc.devRef .tc r) = U_feat U0 (Proc.devRef .tc r) :=
  good_msg1.step h (U_n1_feat U0 r h)
theorem U_e1_feat (h : r.idx.val < 56) : U_e1 U0 (Proc.devRef .tc r) = U_feat U0 (Proc.devRef .tc r) :=
  good_elu1.step h (good_bias1.step h (U_m1_feat U0 r h))
theorem U_d2_feat (h : r.idx.val < 56) : U_d2 U0 (Proc.devRef .tc r) = U_feat U0 (Proc.devRef .tc r) :=
  good_dot2.step h (U_e1_feat U0 r h)
theorem U_n2_feat (h : r.idx.val < 56) : U_n2 U0 (Proc.devRef .tc r) = U_feat U0 (Proc.devRef .tc r) :=
  good_norm2.step h (U_d2_feat U0 r h)
theorem U_m2_feat (h : r.idx.val < 56) : U_m2 U0 (Proc.devRef .tc r) = U_feat U0 (Proc.devRef .tc r) :=
  good_msg2.step h (U_n2_feat U0 r h)
theorem U_e2_feat (h : r.idx.val < 56) : U_e2 U0 (Proc.devRef .tc r) = U_feat U0 (Proc.devRef .tc r) :=
  good_elu2.step h (good_bias2.step h (U_m2_feat U0 r h))
theorem U_d3_feat (h : r.idx.val < 56) : U_d3 U0 (Proc.devRef .tc r) = U_feat U0 (Proc.devRef .tc r) :=
  good_dot3.step h (U_e2_feat U0 r h)
theorem U_n3_feat (h : r.idx.val < 56) : U_n3 U0 (Proc.devRef .tc r) = U_feat U0 (Proc.devRef .tc r) :=
  good_norm3.step h (U_d3_feat U0 r h)
theorem U_m3_feat (h : r.idx.val < 56) : U_m3 U0 (Proc.devRef .tc r) = U_feat U0 (Proc.devRef .tc r) :=
  good_msg3.step h (U_n3_feat U0 r h)
theorem U_e3_feat (h : r.idx.val < 56) : U_e3 U0 (Proc.devRef .tc r) = U_feat U0 (Proc.devRef .tc r) :=
  good_elu3.step h (good_bias3.step h (U_m3_feat U0 r h))
theorem U_pool_feat (h : r.idx.val < 56) : U_pool U0 (Proc.devRef .tc r) = U_feat U0 (Proc.devRef .tc r) :=
  good_pool.step h (U_e3_feat U0 r h)

-- an argument, numbered below 21, still holds its launch contents
theorem launch (h : r.idx.val < 21) : U_feat U0 (Proc.devRef .tc r) = U0 (Proc.devRef .tc r) := good_feat.keep U0 r h
theorem arg_of {V : Valuation τ sig (Elt Ideal)} (hV : r.idx.val < 56 → V (Proc.devRef .tc r) = U_feat U0 (Proc.devRef .tc r))
    (h : r.idx.val < 21) : V (Proc.devRef .tc r) = U0 (Proc.devRef .tc r) :=
  (hV (Nat.lt_trans h (by decide))).trans (launch U0 r h)

end

theorem U_d1_main_v25 (U0 : Valuation τ sig (Elt Ideal)) : (U_d1 U0) (main_v25 : DevRef τ sig) = (U_feat U0) (main_v25 : DevRef τ sig) :=
  U_d1_feat U0 main_v25 (by decide)
theorem U_d1_main_v28 (U0 : Valuation τ sig (Elt Ideal)) : (U_d1 U0) (main_v28 : DevRef τ sig) = (U_feat U0) (main_v28 : DevRef τ sig) :=
  U_d1_feat U0 main_v28 (by decide)
theorem U_n1_main_v25 (U0 : Valuation τ sig (Elt Ideal)) : (U_n1 U0) (main_v25 : DevRef τ sig) = (U_feat U0) (main_v25 : DevRef τ sig) :=
  U_n1_feat U0 main_v25 (by decide)
theorem U_n1_main_v28 (U0 : Valuation τ sig (Elt Ideal)) : (U_n1 U0) (main_v28 : DevRef τ sig) = (U_feat U0) (main_v28 : DevRef τ sig) :=
  U_n1_feat U0 main_v28 (by decide)
theorem U_d2_main_v25 (U0 : Valuation τ sig (Elt Ideal)) : (U_d2 U0) (main_v25 : DevRef τ sig) = (U_feat U0) (main_v25 : DevRef τ sig) :=
  U_d2_feat U0 main_v25 (by decide)
theorem U_d2_main_v28 (U0 : Valuation τ sig (Elt Ideal)) : (U_d2 U0) (main_v28 : DevRef τ sig) = (U_feat U0) (main_v28 : DevRef τ sig) :=
  U_d2_feat U0 main_v28 (by decide)
theorem U_n2_main_v25 (U0 : Valuation τ sig (Elt Ideal)) : (U_n2 U0) (main_v25 : DevRef τ sig) = (U_feat U0) (main_v25 : DevRef τ sig) :=
  U_n2_feat U0 main_v25 (by decide)
theorem U_n2_main_v28 (U0 : Valuation τ sig (Elt Ideal)) : (U_n2 U0) (main_v28 : DevRef τ sig) = (U_feat U0) (main_v28 : DevRef τ sig) :=
  U_n2_feat U0 main_v28 (by decide)
theorem U_d3_main_v25 (U0 : Valuation τ sig (Elt Ideal)) : (U_d3 U0) (main_v25 : DevRef τ sig) = (U_feat U0) (main_v25 : DevRef τ sig) :=
  U_d3_feat U0 main_v25 (by decide)
theorem U_d3_main_v28 (U0 : Valuation τ sig (Elt Ideal)) : (U_d3 U0) (main_v28 : DevRef τ sig) = (U_feat U0) (main_v28 : DevRef τ sig) :=
  U_d3_feat U0 main_v28 (by decide)
theorem U_n3_main_v25 (U0 : Valuation τ sig (Elt Ideal)) : (U_n3 U0) (main_v25 : DevRef τ sig) = (U_feat U0) (main_v25 : DevRef τ sig) :=
  U_n3_feat U0 main_v25 (by decide)
theorem U_n3_main_v28 (U0 : Valuation τ sig (Elt Ideal)) : (U_n3 U0) (main_v28 : DevRef τ sig) = (U_feat U0) (main_v28 : DevRef τ sig) :=
  U_n3_feat U0 main_v28 (by decide)
theorem U_n1_main_v29 (U0 : Valuation τ sig (Elt Ideal)) : (U_n1 U0) (main_v29 : DevRef τ sig) = (U_d1 U0) (main_v29 : DevRef τ sig) :=
  good_norm1.keep _ main_v29 (by decide)
theorem U_n2_main_v74 (U0 : Valuation τ sig (Elt Ideal)) : (U_n2 U0) (main_v74 : DevRef τ sig) = (U_d2 U0) (main_v74 : DevRef τ sig) :=
  good_norm2.keep _ main_v74 (by decide)
theorem U_n3_main_v119 (U0 : Valuation τ sig (Elt Ideal)) : (U_n3 U0) (main_v119 : DevRef τ sig) = (U_d3 U0) (main_v119 : DevRef τ sig) :=
  good_norm3.keep _ main_v119 (by decide)

set_option maxRecDepth 8192 in
theorem dot1_mm (U0 : Valuation τ sig (Elt Ideal)) :
    (U_d1 U0) (main_v29 : DevRef τ sig)
      = Cert.Spec.mm (n := 50000) (k := 222) (p := 222) ((U_feat U0) (main_v21 : DevRef τ sig)) (U0 (main_arg9 : DevRef τ sig)) := by
  rw [← launch U0 main_arg9 (by decide)]
  exact ((congrFun (after_single _ (U_feat U0)) _).trans (binary_result main_v21 main_arg9 main_v29 _ _ _ _ (U_feat U0))).trans (dot_mm_50000 _ _)
set_option maxRecDepth 8192 in
theorem dot2_mm (U0 : Valuation τ sig (Elt Ideal)) :
    (U_d2 U0) (main_v74 : DevRef τ sig)
      = Cert.Spec.mm (n := 50000) (k := 222) (p := 222) ((U_e1 U0) (main_v73 : DevRef τ sig)) (U0 (main_arg11 : DevRef τ sig)) := by
  rw [← arg_of U0 main_arg11 (U_e1_feat U0 _) (by decide)]
  exact ((congrFun (after_single _ (U_e1 U0)) _).trans (binary_result main_v73 main_arg11 main_v74 _ _ _ _ (U_e1 U0))).trans (dot_mm_50000 _ _)
set_option maxRecDepth 8192 in
theorem dot3_mm (U0 : Valuation τ sig (Elt Ideal)) :
    (U_d3 U0) (main_v119 : DevRef τ sig)
      = Cert.Spec.mm (n := 50000) (k := 222) (p := 222) ((U_e2 U0) (main_v118 : DevRef τ sig)) (U0 (main_arg13 : DevRef τ sig)) := by
  rw [← arg_of U0 main_arg13 (U_e2_feat U0 _) (by decide)]
  exact ((congrFun (after_single _ (U_e2 U0)) _).trans (binary_result main_v118 main_arg13 main_v119 _ _ _ _ (U_e2 U0))).trans (dot_mm_50000 _ _)

end Cert.ReferenceIdeal.Hand

end
-- ==== Proof.RefEluVal.lean ====
import proofs.«123287_j41248865910880_1_alg».proof.Proof.RefOps
import proofs.«123287_j41248865910880_1_alg».proof.Proof.EluLaws
import proofs.«123287_j41248865910880_1_alg».proof.Proof.Spec
import Idealize.ShloMosaic.Lib.StableHlo.Run
import Idealize.ShloMosaic.Lib.Pipeline.Frame
import Idealize.ShloMosaic.Lib.Pipeline.Value
import Idealize.ShloMosaic.Lib.ValueLayout
import Idealize.ShloMosaic.Lib.ValueIdx
import Idealize.ShloMosaic.Lib.IdealHost

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

section AnyFloats
variable {F : FTy → Type} [FloatOps F]

def eluHost {s : Shape} (bc : (⟨0, ![]⟩ : Shape).BroadcastsInDim s (![] : Fin 0 → Fin s.rank)) (z : FVec F s .f32) : FVec F s .f32 :=
  select (cmpf .ogt z (broadcastInDim s ![] bc (constant (F := F) ⟨0, ![]⟩ .f32 0x00000000#32))) z
    (mulf (broadcastInDim s ![] bc (constant (F := F) ⟨0, ![]⟩ .f32 0x3F800000#32))
      (Host.expm1 (select (cmpf .ogt z (broadcastInDim s ![] bc (constant (F := F) ⟨0, ![]⟩ .f32 0x00000000#32)))
        (broadcastInDim s ![] bc (id (constant (F := F) ⟨0, ![]⟩ .f32 0x00000000#32))) z)))

def biasHost (agg : FVec F S50000x222 .f32) (b : FVec F S222 .f32) : FVec F S50000x222 .f32 :=
  addf agg (broadcastInDim S50000x222 ![0, 1] bcast_S1x222_S50000x222_0_1 (broadcastInDim S1x222 ![1] bcast_S222_S1x222_1 b))

end AnyFloats

-- a bias vector laid out as a row and repeated down the rows reads, at an entry, the bias at the entry's column
theorem bias_bcast_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (i : (⟨2, ![n, p]⟩ : Shape).Idx) :
    broadcastInDim ⟨2, ![n, p]⟩ ![0, 1] h2 (broadcastInDim ⟨2, ![1, p]⟩ ![1] h1 b) i = Cert.Spec.rowOf b (ix2 0 (i 1)) := by
  have hp : (i 1).val = if p = 1 then 0 else (i 1).val := by
    split
    · rename_i hp; have h1 : (i 1).val < p := (i 1).isLt; omega
    · rfl
  refine (broadcastInDim_apply ![0, 1] h2 _ i (ix2 0 (i 1)) (fun a => ?_)).trans ?_
  · match a with
    | ⟨0, _⟩ => rfl
    | ⟨1, _⟩ => exact hp
  refine (broadcastInDim_apply ![1] h1 b (ix2 0 (i 1)) (ix1 (i 1)) (fun a => ?_)).trans rfl
  match a with
  | ⟨0, _⟩ => exact hp

-- the reference's spelling of the unit on the biased array is the specification's bias-and-unit
theorem eluHost_biasHost (agg : FVec Ideal S50000x222 .f32) (b : FVec Ideal S222 .f32) :
    eluHost (F := Ideal) bcast_S_S50000x222 (biasHost agg b) = Cert.Spec.biasElu (n := 50000) (p := 222) agg b :=
  (Cert.Spec.elu_host_form (biasHost agg b) bcast_S_S50000x222).trans <| funext fun i =>
    congrArg (fun t => Cert.Spec.elu (agg i + t)) (bias_bcast_apply b bcast_S222_S1x222_1 bcast_S1x222_S50000x222_0_1 i)

set_option maxHeartbeats 1000000 in
theorem biasElu1_val (V : Valuation τ sig (Elt Ideal)) :
    after (ops_bias1 ++ ops_elu1) V (main_v73 : DevRef τ sig)
      = Cert.Spec.biasElu (n := 50000) (p := 222) (V (main_v69 : DevRef τ sig)) (V (main_arg10 : DevRef τ sig)) :=
  Eq.trans (by simp only [after_append, after_cons, after_nil]; rfl) (eluHost_biasHost _ _)

set_option maxHeartbeats 1000000 in
theorem biasElu2_val (V : Valuation τ sig (Elt Ideal)) :
    after (ops_bias2 ++ ops_elu2) V (main_v118 : DevRef τ sig)
      = Cert.Spec.biasElu (n := 50000) (p := 222) (V (main_v114 : DevRef τ sig)) (V (main_arg12 : DevRef τ sig)) :=
  Eq.trans (by simp only [after_append, after_cons, after_nil]; rfl) (eluHost_biasHost _ _)

set_option maxHeartbeats 1000000 in
theorem biasElu3_val (V : Valuation τ sig (Elt Ideal)) :
    after (ops_bias3 ++ ops_elu3) V (main_v163 : DevRef τ sig)
      = Cert.Spec.biasElu (n := 50000) (p := 222) (V (main_v159 : DevRef τ sig)) (V (main_arg14 : DevRef τ sig)) :=
  Eq.trans (by simp only [after_append, after_cons, after_nil]; rfl) (eluHost_biasHost _ _)

end Cert.ReferenceIdeal.Hand

end
-- ==== Proof.RefHeadVal.lean ====
import proofs.«123287_j41248865910880_1_alg».proof.Proof.RefOps
import proofs.«123287_j41248865910880_1_alg».proof.Proof.RefEluVal
import proofs.«123287_j41248865910880_1_alg».proof.Proof.RefDotLaws
import proofs.«123287_j41248865910880_1_alg».proof.Proof.EluLaws
import proofs.«123287_j41248865910880_1_alg».proof.Proof.Spec
import Idealize.ShloMosaic.Lib.Pipeline.Value
import Idealize.ShloMosaic.Lib.ValueLayout

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

theorem fc1_val (V : Valuation τ sig (Elt Ideal)) :
    after ops_fc1 V (main_v179 : DevRef τ sig) = Cert.Spec.denseRow (V (main_v175 : DevRef τ sig)) (V (main_arg15 : DevRef τ sig)) (Cert.Spec.rowOf (V (main_arg16 : DevRef τ sig))) := by
  after_results
  rw [dot_mm_222_512]
  funext i
  rw [addf_apply, bias_bcast_apply]
  rfl

theorem elu4_val (V : Valuation τ sig (Elt Ideal)) :
    after ops_elu4 V (main_v180 : DevRef τ sig) = Cert.Spec.eluV (V (main_v179 : DevRef τ sig)) := by
  after_results
  exact Cert.Spec.elu_host_form (V (main_v179 : DevRef τ sig)) bcast_S_S2000x512

theorem fc2_val (V : Valuation τ sig (Elt Ideal)) :
    after ops_fc2 V (main_v184 : DevRef τ sig) = Cert.Spec.denseRow (V (main_v180 : DevRef τ sig)) (V (main_arg17 : DevRef τ sig)) (Cert.Spec.rowOf (V (main_arg18 : DevRef τ sig))) := by
  after_results
  rw [dot_mm_512_128]
  funext i
  rw [addf_apply, bias_bcast_apply]
  rfl

theorem elu5_val (V : Valuation τ sig (Elt Ideal)) :
    after ops_elu5 V (main_v185 : DevRef τ sig) = Cert.Spec.eluV (V (main_v184 : DevRef τ sig)) := by
  after_results
  exact Cert.Spec.elu_host_form (V (main_v184 : DevRef τ sig)) bcast_S_S2000x128

theorem fc3_val (V : Valuation τ sig (Elt Ideal)) :
    after ops_fc3 V (main_v189 : DevRef τ sig) = Cert.Spec.denseRow (V (main_v185 : DevRef τ sig)) (V (main_arg19 : DevRef τ sig)) (Cert.Spec.rowOf (V (main_arg20 : DevRef τ sig))) := by
  after_results
  rw [dot_mm_128_1]
  funext i
  rw [addf_apply, bias_bcast_apply]
  rfl

theorem head_val (V : Valuation τ sig (Elt Ideal)) :
    after (ops_fc1 ++ (ops_elu4 ++ (ops_fc2 ++ (ops_elu5 ++ ops_fc3)))) V (main_v189 : DevRef τ sig)
      = Cert.Spec.headRow (V (main_v175 : DevRef τ sig)) (V (main_arg15 : DevRef τ sig)) (Cert.Spec.rowOf (V (main_arg16 : DevRef τ sig)))
          (V (main_arg17 : DevRef τ sig)) (Cert.Spec.rowOf (V (main_arg18 : DevRef τ sig)))
          (V (main_arg19 : DevRef τ sig)) (Cert.Spec.rowOf (V (main_arg20 : DevRef τ sig))) := by
  rw [after_append, after_append, after_append, after_append]
  rw [fc3_val, elu5_val, fc2_val, elu4_val, fc1_val]
  rw [good_elu5.keep _ main_arg19 (by decide), good_fc2.keep _ main_arg19 (by decide), good_elu4.keep _ main_arg19 (by decide), good_fc1.keep _ main_arg19 (by decide),
    good_elu5.keep _ main_arg20 (by decide), good_fc2.keep _ main_arg20 (by decide), good_elu4.keep _ main_arg20 (by decide), good_fc1.keep _ main_arg20 (by decide),
    good_elu4.keep _ main_arg17 (by decide), good_fc1.keep _ main_arg17 (by decide),
    good_elu4.keep _ main_arg18 (by decide), good_fc1.keep _ main_arg18 (by decide)]
  rfl

end Cert.ReferenceIdeal.Hand

end
-- ==== Proof.RefChain2.lean ====
import proofs.«123287_j41248865910880_1_alg».proof.Proof.RefChain
import proofs.«123287_j41248865910880_1_alg».proof.Proof.RefHeadVal
import proofs.«123287_j41248865910880_1_alg».proof.Proof.RefEluVal

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem elu1_res (U0 : Valuation τ sig (Elt Ideal)) :
    (U_e1 U0) (main_v73 : DevRef τ sig)
      = Cert.Spec.biasElu (n := 50000) (p := 222) ((U_m1 U0) (main_v69 : DevRef τ sig)) (U0 (main_arg10 : DevRef τ sig)) := by
  refine ((congrFun (after_append ops_bias1 ops_elu1 (U_m1 U0)).symm _).trans (biasElu1_val (U_m1 U0))).trans ?_
  rw [arg_of U0 main_arg10 (U_m1_feat U0 _) (by decide)]

set_option maxRecDepth 8192 in
theorem elu2_res (U0 : Valuation τ sig (Elt Ideal)) :
    (U_e2 U0) (main_v118 : DevRef τ sig)
      = Cert.Spec.biasElu (n := 50000) (p := 222) ((U_m2 U0) (main_v114 : DevRef τ sig)) (U0 (main_arg12 : DevRef τ sig)) := by
  refine ((congrFun (after_append ops_bias2 ops_elu2 (U_m2 U0)).symm _).trans (biasElu2_val (U_m2 U0))).trans ?_
  rw [arg_of U0 main_arg12 (U_m2_feat U0 _) (by decide)]

set_option maxRecDepth 8192 in
theorem elu3_res (U0 : Valuation τ sig (Elt Ideal)) :
    (U_e3 U0) (main_v163 : DevRef τ sig)
      = Cert.Spec.biasElu (n := 50000) (p := 222) ((U_m3 U0) (main_v159 : DevRef τ sig)) (U0 (main_arg14 : DevRef τ sig)) := by
  refine ((congrFun (after_append ops_bias3 ops_elu3 (U_m3 U0)).symm _).trans (biasElu3_val (U_m3 U0))).trans ?_
  rw [arg_of U0 main_arg14 (U_m3_feat U0 _) (by decide)]

set_option maxRecDepth 8192 in
theorem head_res (U0 : Valuation τ sig (Elt Ideal)) :
    (U_end U0) (main_v189 : DevRef τ sig)
      = Cert.Spec.headRow ((U_pool U0) (main_v175 : DevRef τ sig)) (U0 (main_arg15 : DevRef τ sig)) (Cert.Spec.rowOf (U0 (main_arg16 : DevRef τ sig)))
          (U0 (main_arg17 : DevRef τ sig)) (Cert.Spec.rowOf (U0 (main_arg18 : DevRef τ sig)))
          (U0 (main_arg19 : DevRef τ sig)) (Cert.Spec.rowOf (U0 (main_arg20 : DevRef τ sig))) := by
  refine (head_val (U_pool U0)).trans ?_
  rw [arg_of U0 main_arg15 (U_pool_feat U0 _) (by decide), arg_of U0 main_arg16 (U_pool_feat U0 _) (by decide), arg_of U0 main_arg17 (U_pool_feat U0 _) (by decide),
    arg_of U0 main_arg18 (U_pool_feat U0 _) (by decide), arg_of U0 main_arg19 (U_pool_feat U0 _) (by decide), arg_of U0 main_arg20 (U_pool_feat U0 _) (by decide)]

set_option maxRecDepth 8192 in
theorem U_e3_main_arg5 (U0 : Valuation τ sig (Elt Ideal)) : (U_e3 U0) (main_arg5 : DevRef τ sig) = U0 (main_arg5 : DevRef τ sig) :=
  arg_of U0 main_arg5 (U_e3_feat U0 _) (by decide)

end Cert.ReferenceIdeal.Hand

end
-- ==== Proof.BridgeFeat.lean ====
import proofs.«123287_j41248865910880_1_alg».proof.Proof.Gen.KernelIdeal.Launch
import proofs.«123287_j41248865910880_1_alg».proof.Proof.RefOps
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

local notation "𝕂" => Valuation Cert.KernelIdeal.τ Cert.KernelIdeal.sig (Elt F)
local notation "ℝ𝕖" => Valuation Cert.ReferenceIdeal.τ Cert.ReferenceIdeal.sig (Elt F)
local notation "kref" => (Proc.devRef (τ := Cert.KernelIdeal.τ) (sig := Cert.KernelIdeal.sig) Proc.tc)
local notation "rref" => (Proc.devRef (τ := Cert.ReferenceIdeal.τ) (sig := Cert.ReferenceIdeal.sig) Proc.tc)

section Split

open Cert.KernelIdeal Cert.KernelIdeal.Gen

abbrev hostOps0a : List (HloOp τ sig (Elt F)) :=
  [ StableHlo.nullary main_c (constantI S_ 32 0#32),
    StableHlo.unary main_c main_v0 (broadcastInDim S50000 ![] bcast_S_S50000),
    StableHlo.binary main_arg0 main_v0 main_v1 (cmpi .slt),
    StableHlo.nullary main_c_0 (constantI S_ 32 118#32),
    StableHlo.unary main_c_0 main_v2 (broadcastInDim S50000 ![] bcast_S_S50000),
    StableHlo.binary main_arg0 main_v2 main_v3 addi,
    StableHlo.ternary main_v1 main_v3 main_arg0 main_v4 select,
    StableHlo.unary main_v4 main_v5 (broadcastInDim S50000x1 ![0] bcast_S50000_S50000x1_0),
    StableHlo.binary main_arg6 main_v5 main_v6 (fun x i => Host.gather gather_S118x200_S50000x1_S50000x200_1_0_n_n_0_1_1200 x i),
    StableHlo.nullary main_c_1 (constantI S_ 32 0#32),
    StableHlo.unary main_c_1 main_v7 (broadcastInDim S50000 ![] bcast_S_S50000),
    StableHlo.binary main_arg1 main_v7 main_v8 (cmpi .slt),
    StableHlo.nullary main_c_2 (constantI S_ 32 16#32),
    StableHlo.unary main_c_2 main_v9 (broadcastInDim S50000 ![] bcast_S_S50000),
    StableHlo.binary main_arg1 main_v9 main_v10 addi,
    StableHlo.ternary main_v8 main_v10 main_arg1 main_v11 select,
    StableHlo.unary main_v11 main_v12 (broadcastInDim S50000x1 ![0] bcast_S50000_S50000x1_0),
    StableHlo.binary main_arg7 main_v12 main_v13 (fun x i => Host.gather gather_S16x10_S50000x1_S50000x10_1_0_n_n_0_1_110 x i),
    StableHlo.nullary main_c_3 (constantI S_ 32 0#32),
    StableHlo.unary main_c_3 main_v14 (broadcastInDim S50000 ![] bcast_S_S50000),
    StableHlo.binary main_arg2 main_v14 main_v15 (cmpi .slt),
    StableHlo.nullary main_c_4 (constantI S_ 32 64#32),
    StableHlo.unary main_c_4 main_v16 (broadcastInDim S50000 ![] bcast_S_S50000),
    StableHlo.binary main_arg2 main_v16 main_v17 addi,
    StableHlo.ternary main_v15 main_v17 main_arg2 main_v18 select,
    StableHlo.unary main_v18 main_v19 (broadcastInDim S50000x1 ![0] bcast_S50000_S50000x1_0),
    StableHlo.binary main_arg8 main_v19 main_v20 (fun x i => Host.gather gather_S64x10_S50000x1_S50000x10_1_0_n_n_0_1_110 x i),
    StableHlo.nary ![main_v6, main_v13, main_v20, main_arg3] main_v21 (fun u => concatenate S50000x222 1 [⟨S50000x200, u 0⟩, ⟨S50000x10, u 1⟩, ⟨S50000x10, u 2⟩, ⟨S50000x2, u 3⟩] concatenates_S50000x200_S50000x10_S50000x10_S50000x2_S50000x222_d1),
    StableHlo.nullary main_v22 (iotaInDim S50000 32 0),
    StableHlo.unary main_arg4 main_v23 ((extractStridedSlice S1x360000 ![0, 0] · slices_S2x360000_S1x360000_0_0)),
    StableHlo.reshape main_v23 main_v24 rfl shapeCasts_S1x360000_S360000,
    StableHlo.binary main_v24 main_v22 main_v25 (fun a b => concatenate S410000 0 [⟨S360000, a⟩, ⟨S50000, b⟩] concatenates_S360000_S50000_S410000_d0),
    StableHlo.unary main_arg4 main_v26 ((extractStridedSlice S1x360000 ![1, 0] · slices_S2x360000_S1x360000_1_0)),
    StableHlo.reshape main_v26 main_v27 rfl shapeCasts_S1x360000_S360000,
    StableHlo.binary main_v27 main_v22 main_v28 (fun a b => concatenate S410000 0 [⟨S360000, a⟩, ⟨S50000, b⟩] concatenates_S360000_S50000_S410000_d0) ]

abbrev hostOps0b : List (HloOp τ sig (Elt F)) :=
  [ StableHlo.nullary main_cst (constant S_ .f32 0x00000000#32),
    StableHlo.unary main_cst main_v29 (broadcastInDim S50000 ![] bcast_S_S50000),
    StableHlo.nullary main_c_5 (constantI S_ 32 0#32),
    StableHlo.unary main_c_5 main_v30 (broadcastInDim S410000 ![] bcast_S_S410000),
    StableHlo.binary main_v28 main_v30 main_v31 (cmpi .slt),
    StableHlo.nullary main_c_6 (constantI S_ 32 50000#32),
    StableHlo.unary main_c_6 main_v32 (broadcastInDim S410000 ![] bcast_S_S410000),
    StableHlo.binary main_v28 main_v32 main_v33 addi,
    StableHlo.ternary main_v31 main_v33 main_v28 main_v34 select,
    StableHlo.unary main_v34 main_v35 (broadcastInDim S410000x1 ![0] bcast_S410000_S410000x1_0),
    StableHlo.nullary main_cst_7 (constant S_ .f32 0x3F800000#32),
    StableHlo.unary main_cst_7 main_v36 (broadcastInDim S410000 ![] bcast_S_S410000),
    StableHlo.ternary main_v29 main_v35 main_v36 main_v37 (fun x i u => Host.scatterAdd scatter_S50000_S410000x1_S410000_n_0_0_1 x i u),
    StableHlo.nullary main_cst_8 (constant S_ .f32 0x3F800000#32),
    StableHlo.unary main_cst_8 main_v38 (broadcastInDim S50000 ![] bcast_S_S50000),
    StableHlo.binary main_v37 main_v38 main_v39 maximumf,
    StableHlo.unary main_v39 main_v40 Host.rsqrt,
    StableHlo.nullary main_c_9 (constantI S_ 32 0#32),
    StableHlo.unary main_c_9 main_v41 (broadcastInDim S410000 ![] bcast_S_S410000),
    StableHlo.binary main_v25 main_v41 main_v42 (cmpi .slt),
    StableHlo.nullary main_c_10 (constantI S_ 32 50000#32),
    StableHlo.unary main_c_10 main_v43 (broadcastInDim S410000 ![] bcast_S_S410000),
    StableHlo.binary main_v25 main_v43 main_v44 addi,
    StableHlo.ternary main_v42 main_v44 main_v25 main_v45 select,
    StableHlo.unary main_v45 main_v46 (broadcastInDim S410000x1 ![0] bcast_S410000_S410000x1_0),
    StableHlo.binary main_v40 main_v46 main_v47 (fun x i => Host.gather gather_S50000_S410000x1_S410000_n_0_n_n_0_1_1 x i),
    StableHlo.nullary main_c_11 (constantI S_ 32 0#32),
    StableHlo.unary main_c_11 main_v48 (broadcastInDim S410000 ![] bcast_S_S410000),
    StableHlo.binary main_v28 main_v48 main_v49 (cmpi .slt),
    StableHlo.nullary main_c_12 (constantI S_ 32 50000#32),
    StableHlo.unary main_c_12 main_v50 (broadcastInDim S410000 ![] bcast_S_S410000),
    StableHlo.binary main_v28 main_v50 main_v51 addi,
    StableHlo.ternary main_v49 main_v51 main_v28 main_v52 select,
    StableHlo.unary main_v52 main_v53 (broadcastInDim S410000x1 ![0] bcast_S410000_S410000x1_0),
    StableHlo.binary main_v40 main_v53 main_v54 (fun x i => Host.gather gather_S50000_S410000x1_S410000_n_0_n_n_0_1_1 x i),
    StableHlo.binary main_v47 main_v54 main_v55 mulf ]

set_option maxHeartbeats 4000000 in
theorem hostOps0_split : Cert.KernelIdeal.Gen.hostOps0 (F := F) = hostOps0a ++ hostOps0b := rfl

end Split

theorem after_hostOps0 (W : 𝕂) : after KernelIdeal.Gen.hostOps0 W = after hostOps0b (after hostOps0a W) := by
  rw [hostOps0_split, after_append]

set_option maxHeartbeats 4000000 in
theorem hostOps0b_keeps_x (V : 𝕂) : after hostOps0b V (kref KernelIdeal.main_v21) = V (kref KernelIdeal.main_v21) := by
  after_results_simp
set_option maxHeartbeats 4000000 in
theorem hostOps0b_keeps_src (V : 𝕂) : after hostOps0b V (kref KernelIdeal.main_v25) = V (kref KernelIdeal.main_v25) := by
  after_results_simp
set_option maxHeartbeats 4000000 in
theorem hostOps0b_keeps_dst (V : 𝕂) : after hostOps0b V (kref KernelIdeal.main_v28) = V (kref KernelIdeal.main_v28) := by
  after_results_simp

theorem concatenate2_congr {α : Type} {t : Shape} {ax : Fin t.rank} {s1 s2 : Shape}
    {a1 b1 : s1.Idx → α} {a2 b2 : s2.Idx → α}
    (h : Shape.Concatenates ([(⟨s1, a1⟩ : (s : Shape) × (s.Idx → α)), ⟨s2, a2⟩].map (·.1)) t ax)
    (h' : Shape.Concatenates ([(⟨s1, b1⟩ : (s : Shape) × (s.Idx → α)), ⟨s2, b2⟩].map (·.1)) t ax)
    (e1 : a1 = b1) (e2 : a2 = b2) :
    concatenate t ax [⟨s1, a1⟩, ⟨s2, a2⟩] h = concatenate t ax [⟨s1, b1⟩, ⟨s2, b2⟩] h' := by
  subst e1 e2; rfl

theorem concatenate4_congr {α : Type} {t : Shape} {ax : Fin t.rank} {s1 s2 s3 s4 : Shape}
    {a1 b1 : s1.Idx → α} {a2 b2 : s2.Idx → α} {a3 b3 : s3.Idx → α} {a4 b4 : s4.Idx → α}
    (h : Shape.Concatenates ([(⟨s1, a1⟩ : (s : Shape) × (s.Idx → α)), ⟨s2, a2⟩, ⟨s3, a3⟩, ⟨s4, a4⟩].map (·.1)) t ax)
    (h' : Shape.Concatenates ([(⟨s1, b1⟩ : (s : Shape) × (s.Idx → α)), ⟨s2, b2⟩, ⟨s3, b3⟩, ⟨s4, b4⟩].map (·.1)) t ax)
    (e1 : a1 = b1) (e2 : a2 = b2) (e3 : a3 = b3) (e4 : a4 = b4) :
    concatenate t ax [⟨s1, a1⟩, ⟨s2, a2⟩, ⟨s3, a3⟩, ⟨s4, a4⟩] h
      = concatenate t ax [⟨s1, b1⟩, ⟨s2, b2⟩, ⟨s3, b3⟩, ⟨s4, b4⟩] h' := by
  subst e1 e2 e3 e4; rfl

set_option maxHeartbeats 4000000 in
theorem feat_x (WK : 𝕂) (UR : ℝ𝕖)
    (h0 : WK (kref KernelIdeal.main_arg0) = UR (rref ReferenceIdeal.main_arg0))
    (h1 : WK (kref KernelIdeal.main_arg1) = UR (rref ReferenceIdeal.main_arg1))
    (h2 : WK (kref KernelIdeal.main_arg2) = UR (rref ReferenceIdeal.main_arg2))
    (h3 : WK (kref KernelIdeal.main_arg3) = UR (rref ReferenceIdeal.main_arg3))
    (h6 : WK (kref KernelIdeal.main_arg6) = UR (rref ReferenceIdeal.main_arg6))
    (h7 : WK (kref KernelIdeal.main_arg7) = UR (rref ReferenceIdeal.main_arg7))
    (h8 : WK (kref KernelIdeal.main_arg8) = UR (rref ReferenceIdeal.main_arg8)) :
    after hostOps0a WK (kref KernelIdeal.main_v21)
      = after ReferenceIdeal.Hand.ops_feat UR (rref ReferenceIdeal.main_v21) := by
  after_results_simp
  refine concatenate4_congr _ _ ?_ ?_ ?_ ?_ <;> simp only [Matrix.cons_val]
  · after_results_simp
    rw [h0, h6]
    rfl
  · after_results_simp
    rw [h1, h7]
    rfl
  · after_results_simp
    rw [h2, h8]
    rfl
  · after_results_simp
    exact h3

set_option maxHeartbeats 4000000 in
theorem feat_src (WK : 𝕂) (UR : ℝ𝕖)
    (h4 : WK (kref KernelIdeal.main_arg4) = UR (rref ReferenceIdeal.main_arg4)) :
    after hostOps0a WK (kref KernelIdeal.main_v25)
      = after ReferenceIdeal.Hand.ops_feat UR (rref ReferenceIdeal.main_v25) := by
  after_results_simp
  refine concatenate2_congr _ _ ?_ ?_
  · after_results_simp
    rw [h4]
    rfl
  · after_results_simp

set_option maxHeartbeats 4000000 in
theorem feat_dst (WK : 𝕂) (UR : ℝ𝕖)
    (h4 : WK (kref KernelIdeal.main_arg4) = UR (rref ReferenceIdeal.main_arg4)) :
    after hostOps0a WK (kref KernelIdeal.main_v28)
      = after ReferenceIdeal.Hand.ops_feat UR (rref ReferenceIdeal.main_v28) := by
  after_results_simp
  refine concatenate2_congr _ _ ?_ ?_
  · after_results_simp
    rw [h4]
    rfl
  · after_results_simp

end Cert.Bridge

end
-- ==== Proof.BridgeNorm.lean ====
import proofs.«123287_j41248865910880_1_alg».proof.Proof.Gen.KernelIdeal.Launch
import proofs.«123287_j41248865910880_1_alg».proof.Proof.RefOps
import Idealize.ShloMosaic.Lib.StableHlo.Run
import proofs.«123287_j41248865910880_1_alg».proof.Proof.BridgeFeat

noncomputable section

namespace Cert.Bridge

open Idealize.ShloMosaic Idealize.ShloMosaic.TcCoe Idealize.SL.Sem Idealize.ShloMosaic.StableHlo

variable {F : FTy → Type} [FloatOps F]

local notation "𝕂" => Valuation Cert.KernelIdeal.τ Cert.KernelIdeal.sig (Elt F)
local notation "ℝ𝕖" => Valuation Cert.ReferenceIdeal.τ Cert.ReferenceIdeal.sig (Elt F)
local notation "kref" => (Proc.devRef (τ := Cert.KernelIdeal.τ) (sig := Cert.KernelIdeal.sig) Proc.tc)
local notation "rref" => (Proc.devRef (τ := Cert.ReferenceIdeal.τ) (sig := Cert.ReferenceIdeal.sig) Proc.tc)

set_option maxHeartbeats 4000000 in
theorem norm1 (WK : 𝕂) (UR : ℝ𝕖)
    (hs : WK (kref KernelIdeal.main_v25) = UR (rref ReferenceIdeal.main_v25))
    (ht : WK (kref KernelIdeal.main_v28) = UR (rref ReferenceIdeal.main_v28)) :
    after hostOps0b WK (kref KernelIdeal.main_v55)
      = after ReferenceIdeal.Hand.ops_norm1 UR (rref ReferenceIdeal.main_v56) := by
  simp only [ReferenceIdeal.Hand.ops_norm1, after_append]
  after_results_simp
  rw [hs, ht]
  rfl

set_option maxHeartbeats 4000000 in
theorem norm2 (WK : 𝕂) (UR : ℝ𝕖)
    (hs : WK (kref KernelIdeal.main_v25) = UR (rref ReferenceIdeal.main_v25))
    (ht : WK (kref KernelIdeal.main_v28) = UR (rref ReferenceIdeal.main_v28)) :
    after hostOps0b WK (kref KernelIdeal.main_v55)
      = after ReferenceIdeal.Hand.ops_norm2 UR (rref ReferenceIdeal.main_v101) := by
  simp only [ReferenceIdeal.Hand.ops_norm2, after_append]
  after_results_simp
  rw [hs, ht]
  rfl

set_option maxHeartbeats 4000000 in
theorem norm3 (WK : 𝕂) (UR : ℝ𝕖)
    (hs : WK (kref KernelIdeal.main_v25) = UR (rref ReferenceIdeal.main_v25))
    (ht : WK (kref KernelIdeal.main_v28) = UR (rref ReferenceIdeal.main_v28)) :
    after hostOps0b WK (kref KernelIdeal.main_v55)
      = after ReferenceIdeal.Hand.ops_norm3 UR (rref ReferenceIdeal.main_v146) := by
  simp only [ReferenceIdeal.Hand.ops_norm3, after_append]
  after_results_simp
  rw [hs, ht]
  rfl

end Cert.Bridge

end
-- ==== Proof.Final.lean ====
import proofs.«123287_j41248865910880_1_alg».proof.Defs
import proofs.«123287_j41248865910880_1_alg».proof.Proof.KIChain
import proofs.«123287_j41248865910880_1_alg».proof.Proof.RefRun
import proofs.«123287_j41248865910880_1_alg».proof.Proof.RefChain
import proofs.«123287_j41248865910880_1_alg».proof.Proof.RefChain2
import proofs.«123287_j41248865910880_1_alg».proof.Proof.BridgeFeat
import proofs.«123287_j41248865910880_1_alg».proof.Proof.BridgeNorm
import proofs.«123287_j41248865910880_1_alg».proof.Proof.BridgeMsg
import proofs.«123287_j41248865910880_1_alg».proof.Proof.BridgePool
import proofs.«123287_j41248865910880_1_alg».proof.Proof.Gen.Pre_finite_inputs

set_option maxRecDepth 16384

noncomputable section

namespace Cert.Final

open Idealize.ShloMosaic Idealize.ShloMosaic.TcCoe Idealize.SL.Sem Idealize.ShloMosaic.StableHlo

local notation "kref" => (Proc.devRef (τ := Cert.KernelIdeal.τ) (sig := Cert.KernelIdeal.sig) Proc.tc)
local notation "rref" => (Proc.devRef (τ := Cert.ReferenceIdeal.τ) (sig := Cert.ReferenceIdeal.sig) Proc.tc)

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

abbrev U0 : Valuation Cert.ReferenceIdeal.τ Cert.ReferenceIdeal.sig (Elt Ideal) := launchContents m' (c : Dev Cert.ReferenceIdeal.nD)

-- stage by stage the kernel's arrays equal the reference's, so the last ones do
open Cert.KernelIdeal.Hand Cert.ReferenceIdeal.Hand Cert.Bridge in
theorem value_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    after (Cert.ReferenceIdeal.Hand.ops (F := Ideal)) (U0 m' c) (rref Cert.ReferenceIdeal.main_v189) = (Cert.KernelIdeal.Hand.dat6 (F := Ideal) (Cert.KernelIdeal.Hand.V11 m g) c).arrAt 7 Cert.KernelIdeal.cfg6.N := by
  obtain ⟨a0, a1, a2, a3, a4, a5, a6, a7, a8, a9, a10, a11, a12, a13, a14, a15, a16, a17, a18, a19, a20⟩ := hag
  have e9 : (W0 m g c) (kref Cert.KernelIdeal.main_arg9) = U0 m' c (rref Cert.ReferenceIdeal.main_arg9) := a9.symm
  have e10 : (W0 m g c) (kref Cert.KernelIdeal.main_arg10) = U0 m' c (rref Cert.ReferenceIdeal.main_arg10) := a10.symm
  have e11 : (W0 m g c) (kref Cert.KernelIdeal.main_arg11) = U0 m' c (rref Cert.ReferenceIdeal.main_arg11) := a11.symm
  have e12 : (W0 m g c) (kref Cert.KernelIdeal.main_arg12) = U0 m' c (rref Cert.ReferenceIdeal.main_arg12) := a12.symm
  have e13 : (W0 m g c) (kref Cert.KernelIdeal.main_arg13) = U0 m' c (rref Cert.ReferenceIdeal.main_arg13) := a13.symm
  have e14 : (W0 m g c) (kref Cert.KernelIdeal.main_arg14) = U0 m' c (rref Cert.ReferenceIdeal.main_arg14) := a14.symm
  have e15 : (W0 m g c) (kref Cert.KernelIdeal.main_arg15) = U0 m' c (rref Cert.ReferenceIdeal.main_arg15) := a15.symm
  have e16 : (W0 m g c) (kref Cert.KernelIdeal.main_arg16) = U0 m' c (rref Cert.ReferenceIdeal.main_arg16) := a16.symm
  have e17 : (W0 m g c) (kref Cert.KernelIdeal.main_arg17) = U0 m' c (rref Cert.ReferenceIdeal.main_arg17) := a17.symm
  have e18 : (W0 m g c) (kref Cert.KernelIdeal.main_arg18) = U0 m' c (rref Cert.ReferenceIdeal.main_arg18) := a18.symm
  have e19 : (W0 m g c) (kref Cert.KernelIdeal.main_arg19) = U0 m' c (rref Cert.ReferenceIdeal.main_arg19) := a19.symm
  have e20 : (W0 m g c) (kref Cert.KernelIdeal.main_arg20) = U0 m' c (rref Cert.ReferenceIdeal.main_arg20) := a20.symm
  have hW1 : ∀ b, (W1 m g c) b = after hostOps0b (after hostOps0a (W0 m g c)) b := fun b => congrFun (after_hostOps0 (W0 m g c)) b
  have hx0 : (W1 m g c) (kref Cert.KernelIdeal.main_v21) = (U_feat (U0 m' c)) (rref Cert.ReferenceIdeal.main_v21) :=
    (hW1 _).trans ((hostOps0b_keeps_x _).trans (feat_x (W0 m g c) (U0 m' c) a0.symm a1.symm a2.symm a3.symm a6.symm a7.symm a8.symm))
  have hsa : after hostOps0a (W0 m g c) (kref Cert.KernelIdeal.main_v25) = (U_feat (U0 m' c)) (rref Cert.ReferenceIdeal.main_v25) := feat_src (W0 m g c) (U0 m' c) a4.symm
  have hta : after hostOps0a (W0 m g c) (kref Cert.KernelIdeal.main_v28) = (U_feat (U0 m' c)) (rref Cert.ReferenceIdeal.main_v28) := feat_dst (W0 m g c) (U0 m' c) a4.symm
  have hs1 : (W1 m g c) (kref Cert.KernelIdeal.main_v25) = (U_feat (U0 m' c)) (rref Cert.ReferenceIdeal.main_v25) := (hW1 _).trans ((hostOps0b_keeps_src _).trans hsa)
  have ht1 : (W1 m g c) (kref Cert.KernelIdeal.main_v28) = (U_feat (U0 m' c)) (rref Cert.ReferenceIdeal.main_v28) := (hW1 _).trans ((hostOps0b_keeps_dst _).trans hta)
  have hH1 : (W2 m g c) (kref Cert.KernelIdeal.main_v56) = (U_d1 (U0 m' c)) (rref Cert.ReferenceIdeal.main_v29) := by
    rw [kc_dot1, dot1_mm, hx0, ← e9]
  have hN1 : (W1 m g c) (kref Cert.KernelIdeal.main_v55) = (U_n1 (U0 m' c)) (rref Cert.ReferenceIdeal.main_v56) :=
    (hW1 _).trans (norm1 _ (U_d1 (U0 m' c)) (hsa.trans (U_d1_main_v25 _).symm) (hta.trans (U_d1_main_v28 _).symm))
  have hM1 : (W3 m g c) (kref Cert.KernelIdeal.main_v69) = (U_m1 (U0 m' c)) (rref Cert.ReferenceIdeal.main_v69) :=
    msg1 (W2 m g c) (U_n1 (U0 m' c)) (hH1.trans (U_n1_main_v29 _).symm)
      ((W2_eq m g c Cert.KernelIdeal.main_v25).trans (hs1.trans (U_n1_main_v25 _).symm))
      ((W2_eq m g c Cert.KernelIdeal.main_v28).trans (ht1.trans (U_n1_main_v28 _).symm))
      ((W2_eq m g c Cert.KernelIdeal.main_v55).trans hN1)
  have hE1 : (W4 m g c) (kref Cert.KernelIdeal.main_v71) = (U_e1 (U0 m' c)) (rref Cert.ReferenceIdeal.main_v73) := by
    rw [kc_elu1, elu1_res, hM1, ← e10]
  have hH2 : (W5 m g c) (kref Cert.KernelIdeal.main_v72) = (U_d2 (U0 m' c)) (rref Cert.ReferenceIdeal.main_v74) := by
    rw [kc_dot2, dot2_mm, hE1, ← e11]
  have hN2 : (W1 m g c) (kref Cert.KernelIdeal.main_v55) = (U_n2 (U0 m' c)) (rref Cert.ReferenceIdeal.main_v101) :=
    (hW1 _).trans (norm2 _ (U_d2 (U0 m' c)) (hsa.trans (U_d2_main_v25 _).symm) (hta.trans (U_d2_main_v28 _).symm))
  have hM2 : (W6 m g c) (kref Cert.KernelIdeal.main_v85) = (U_m2 (U0 m' c)) (rref Cert.ReferenceIdeal.main_v114) :=
    msg2 (W5 m g c) (U_n2 (U0 m' c)) (hH2.trans (U_n2_main_v74 _).symm)
      ((W5_eq m g c Cert.KernelIdeal.main_v25).trans (hs1.trans (U_n2_main_v25 _).symm))
      ((W5_eq m g c Cert.KernelIdeal.main_v28).trans (ht1.trans (U_n2_main_v28 _).symm))
      ((W5_eq m g c Cert.KernelIdeal.main_v55).trans hN2)
  have hE2 : (W7 m g c) (kref Cert.KernelIdeal.main_v87) = (U_e2 (U0 m' c)) (rref Cert.ReferenceIdeal.main_v118) := by
    rw [kc_elu2, elu2_res, hM2, ← e12]
  have hH3 : (W8 m g c) (kref Cert.KernelIdeal.main_v88) = (U_d3 (U0 m' c)) (rref Cert.ReferenceIdeal.main_v119) := by
    rw [kc_dot3, dot3_mm, hE2, ← e13]
  have hN3 : (W1 m g c) (kref Cert.KernelIdeal.main_v55) = (U_n3 (U0 m' c)) (rref Cert.ReferenceIdeal.main_v146) :=
    (hW1 _).trans (norm3 _ (U_d3 (U0 m' c)) (hsa.trans (U_d3_main_v25 _).symm) (hta.trans (U_d3_main_v28 _).symm))
  have hM3 : (W9 m g c) (kref Cert.KernelIdeal.main_v101) = (U_m3 (U0 m' c)) (rref Cert.ReferenceIdeal.main_v159) :=
    msg3 (W8 m g c) (U_n3 (U0 m' c)) (hH3.trans (U_n3_main_v119 _).symm)
      ((W8_eq m g c Cert.KernelIdeal.main_v25).trans (hs1.trans (U_n3_main_v25 _).symm))
      ((W8_eq m g c Cert.KernelIdeal.main_v28).trans (ht1.trans (U_n3_main_v28 _).symm))
      ((W8_eq m g c Cert.KernelIdeal.main_v55).trans hN3)
  have hE3 : (W10 m g c) (kref Cert.KernelIdeal.main_v103) = (U_e3 (U0 m' c)) (rref Cert.ReferenceIdeal.main_v163) := by
    rw [kc_elu3, elu3_res, hM3, ← e14]
  have hP : (W11 m g c) (kref Cert.KernelIdeal.main_v115) = (U_pool (U0 m' c)) (rref Cert.ReferenceIdeal.main_v175) :=
    pool (W10 m g c) (U_e3 (U0 m' c)) hE3 ((kc_arg5 m g c).trans (a5.symm.trans (U_e3_main_arg5 (U0 m' c)).symm))
  rw [after_ops_chain, head_res, kc_head, hP, ← e15, ← e16, ← e17, ← e18, ← e19, ← e20]

end Cert.Final

end
-- ==== Proof.lean ====
import proofs.«123287_j41248865910880_1_alg».proof.Defs
import proofs.«123287_j41248865910880_1_alg».proof.Proof.Gen.Kernel
import proofs.«123287_j41248865910880_1_alg».proof.Proof.Gen.KernelIdeal
import proofs.«123287_j41248865910880_1_alg».proof.Proof.Gen.ReferenceIdeal
import proofs.«123287_j41248865910880_1_alg».proof.Proof.Gen.Pre_finite_inputs
import proofs.«123287_j41248865910880_1_alg».proof.Proof.KRun
import proofs.«123287_j41248865910880_1_alg».proof.Proof.KIRun
import proofs.«123287_j41248865910880_1_alg».proof.Proof.RefFrame
import proofs.«123287_j41248865910880_1_alg».proof.Proof.Final
import Idealize.ShloMosaic.Adequacy
import Idealize.ShloMosaic.Init

noncomputable section

namespace Cert.Proof

open Idealize.ShloMosaic Idealize.SL.Sem Idealize.ShloMosaic.StableHlo

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hag
  refine ⟨fun c => (Cert.KernelIdeal.Hand.dat6 (F := Ideal) (Cert.KernelIdeal.Hand.V11 m g) c).arrAt 7 Cert.KernelIdeal.cfg6.N,
    Cert.KernelIdeal.Hand.run_result m g, ?_⟩
  refine (θ_run Cert.ReferenceIdeal.defs _ _).mono (fun r h c => ?_) (Cert.ReferenceIdeal.Hand.run_main m' g')
  refine ⟨(h c _).trans (Cert.Final.value_eq m g m' c (hag c)), ?_, ?_, ?_, ?_, ?_, ?_, ?_, ?_, ?_, ?_, ?_, ?_, ?_, ?_, ?_, ?_, ?_, ?_, ?_, ?_, ?_⟩ <;>
    exact (h c _).trans (Cert.ReferenceIdeal.Hand.good_ops.keep _ _ (by decide))

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  algebraic⟩

end Cert.Proof

end
